-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x160000 : Shape := ⟨2, ![2, 160000]⟩
abbrev S160000x16 : Shape := ⟨2, ![160000, 16]⟩
abbrev S528x256 : Shape := ⟨2, ![528, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S160000x16 : S_.BroadcastsInDim S160000x16 (![] : Fin 0 → Fin S160000x16.rank)
  reducesTo_S160000x16_S_d0_1 : S160000x16.ReducesTo [0, 1] S_
  bcast_S_S528x256 : S_.BroadcastsInDim S528x256 (![] : Fin 0 → Fin S528x256.rank)
  reducesTo_S528x256_S_d0_1 : S528x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S528x256 .f32) (main_arg6 : FVec F S256 .f32) (main_arg7 : FVec F S256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S528x256 .f32 := Host.absf main_arg5
  let main_cst_6 : FVec F S_ .f32 := constant S_ .f32 0x7F800000#32
  let main_v20 : FVec F S528x256 .f32 := broadcastInDim S528x256 ![] bcast_S_S528x256 main_cst_6
  let main_v21 : IVec S528x256 1 := cmpf .olt main_v19 main_v20
  let main_c_7 : IVec S_ 1 := constantI S_ 1 1#1
  let main_v22 : IVec S_ 1 := (fun x v => Host.reduce IntOp.andi x v reducesTo_S528x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_v33

def fn {F : FTy → Type} [FloatOps F] (main_arg0 : FVec F S10000x256 .f32) (main_arg1 : IVec S2x160000 32) (main_arg2 : FVec F S160000x16 .f32) (main_arg3 : FVec F S528x256 .f32) (main_arg4 : FVec F S256 .f32) (main_arg5 : FVec F S528x256 .f32) (main_arg6 : FVec F S256 .f32) (main_arg7 : FVec F S256 .f32) (main_arg8 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S160000x16 .f32 := Host.absf main_arg2
  let main_cst_0 : FVec F S_ .f32 := constant S_ .f32 0x7F800000#32
  let main_v5 : FVec F S160000x16 .f32 := broadcastInDim S160000x16 ![] bcast_S_S160000x16 main_cst_0
  let main_v6 : IVec S160000x16 1 := cmpf .olt main_v4 main_v5
  let main_c_1 : IVec S_ 1 := constantI S_ 1 1#1
  let main_v7 : IVec S_ 1 := (fun x v => Host.reduce IntOp.andi x v reducesTo_S160000x16_S_d0_1 h_S_) main_v6 main_c_1
  let main_v8 : IVec S_ 1 := andi main_v3 main_v7
  let main_v9 : FVec F S528x256 .f32 := Host.absf main_arg3
  let main_cst_2 : FVec F S_ .f32 := constant S_ .f32 0x7F800000#32
  let main_v10 : FVec F S528x256 .f32 := broadcastInDim S528x256 ![] bcast_S_S528x256 main_cst_2
  let main_v11 : IVec S528x256 1 := cmpf .olt main_v9 main_v10
  let main_c_3 : IVec S_ 1 := constantI S_ 1 1#1
  let main_v12 : IVec S_ 1 := (fun x v => Host.reduce IntOp.andi x v reducesTo_S528x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S10000x256 : Shape := ⟨2, ![10000, 256]⟩
abbrev S2x160000 : Shape := ⟨2, ![2, 160000]⟩
abbrev S160000x16 : Shape := ⟨2, ![160000, 16]⟩
abbrev S528x256 : Shape := ⟨2, ![528, 256]⟩
abbrev S256 : Shape := ⟨1, ![256]⟩
abbrev S1x160000 : Shape := ⟨2, ![1, 160000]⟩
abbrev S160000 : Shape := ⟨1, ![160000]⟩
abbrev S256x256 : Shape := ⟨2, ![256, 256]⟩
abbrev S256x512 : Shape := ⟨2, ![256, 512]⟩
abbrev S16x256 : Shape := ⟨2, ![16, 256]⟩
abbrev S16x512 : Shape := ⟨2, ![16, 512]⟩
abbrev S512 : Shape := ⟨1, ![512]⟩
abbrev S1x512 : Shape := ⟨2, ![1, 512]⟩
abbrev S10000x512 : Shape := ⟨2, ![10000, 512]⟩
abbrev S2000x256 : Shape := ⟨2, ![2000, 256]⟩
abbrev S2000x512 : Shape := ⟨2, ![2000, 512]⟩
abbrev S160000x512 : Shape := ⟨2, ![160000, 512]⟩
abbrev S2000x16 : Shape := ⟨2, ![2000, 16]⟩
abbrev S_ : Shape := ⟨0, ![]⟩
abbrev S160000x1 : Shape := ⟨2, ![160000, 1]⟩
abbrev S160000x256 : Shape := ⟨2, ![160000, 256]⟩
abbrev S2x256 : Shape := ⟨2, ![2, 256]⟩
abbrev S1x256 : Shape := ⟨2, ![1, 256]⟩

abbrev nBuf : Space → Nat
  | .hbm => 56
  | .vmem => 33
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000x16, .f32⟩
  | .hbm, ⟨3, _⟩ => ⟨S528x256, .f32⟩
  | .hbm, ⟨4, _⟩ => ⟨S256, .f32⟩
  | .hbm, ⟨5, _⟩ => ⟨S528x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x160000, .i32⟩
  | .hbm, ⟨10, _⟩ => ⟨S160000, .i32⟩
  | .hbm, ⟨11, _⟩ => ⟨S1x160000, .i32⟩
  | .hbm, ⟨12, _⟩ => ⟨S160000, .i32⟩
  | .hbm, ⟨13, _⟩ => ⟨S256x256, .f32⟩
  | .hbm, ⟨14, _⟩ => ⟨S256x256, .f32⟩
  | .hbm, ⟨15, _⟩ => ⟨S256x512, .f32⟩
  | .hbm, ⟨16, _⟩ => ⟨S256x256, .f32⟩
  | .hbm, ⟨17, _⟩ => ⟨S256x256, .f32⟩
  | .hbm, ⟨18, _⟩ => ⟨S256x512, .f32⟩
  | .hbm, ⟨19, _⟩ => ⟨S16x256, .f32⟩
  | .hbm, ⟨20, _⟩ => ⟨S16x256, .f32⟩
  | .hbm, ⟨21, _⟩ => ⟨S16x512, .f32⟩
  | .hbm, ⟨22, _⟩ => ⟨S512, .f32⟩
  | .hbm, ⟨23, _⟩ => ⟨S1x512, .f32⟩
  | .hbm, ⟨24, _⟩ => ⟨S10000x512, .f32⟩
  | .hbm, ⟨25, _⟩ => ⟨S10000x512, .f32⟩
  | .hbm, ⟨26, _⟩ => ⟨S160000x512, .f32⟩
  | .hbm, ⟨27, _⟩ => ⟨S_, .i32⟩
  | .hbm, ⟨28, _⟩ => ⟨S160000, .i32⟩
  | .hbm, ⟨29, _⟩ => ⟨S160000, .i1⟩
  | .hbm, ⟨30, _⟩ => ⟨S_, .i32⟩
  | .hbm, ⟨31, _⟩ => ⟨S160000, .i32⟩
  | .hbm, ⟨32, _⟩ => ⟨S160000, .i32⟩
  | .hbm, ⟨33, _⟩ => ⟨S160000, .i32⟩
  | .hbm, ⟨34, _⟩ => ⟨S160000x1, .i32⟩
  | .hbm, ⟨35, _⟩ => ⟨S160000x512, .f32⟩
  | .hbm, ⟨36, _⟩ => ⟨S_, .i32⟩
  | .hbm, ⟨37, _⟩ => ⟨S160000, .i32⟩
  | .hbm, ⟨38, _⟩ => ⟨S160000, .i1⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S160000, .i32⟩
  | .hbm, ⟨43, _⟩ => ⟨S160000x1, .i32⟩
  | .hbm, ⟨44, _⟩ => ⟨S160000x512, .f32⟩
  | .hbm, ⟨45, _⟩ => ⟨S160000x512, .f32⟩
  | .hbm, ⟨46, _⟩ => ⟨S160000x512, .f32⟩
  | .hbm, ⟨47, _⟩ => ⟨S160000x256, .f32⟩
  | .hbm, ⟨48, _⟩ => ⟨S_, .f32⟩
  | .hbm, ⟨49, _⟩ => ⟨S10000x256, .f32⟩
  | .hbm, ⟨50, _⟩ => ⟨S160000x1, .i32⟩
  | .hbm, ⟨51, _⟩ => ⟨S10000x256, .f32⟩
  | .hbm, ⟨52, _⟩ => ⟨S2x256, .f32⟩
  | .hbm, ⟨53, _⟩ => ⟨S1x256, .f32⟩
  | .hbm, ⟨54, _⟩ => ⟨S1x256, .f32⟩
  | .hbm, ⟨55, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S2000x16, .f32⟩
  | .local _ .vmem, ⟨10, _⟩ => ⟨S2000x16, .f32⟩
  | .local _ .vmem, ⟨11, _⟩ => ⟨S16x512, .f32⟩
  | .local _ .vmem, ⟨12, _⟩ => ⟨S2000x512, .f32⟩
  | .local _ .vmem, ⟨13, _⟩ => ⟨S2000x512, .f32⟩
  | .local _ .vmem, ⟨14, _⟩ => ⟨S2000x512, .f32⟩
  | .local _ .vmem, ⟨15, _⟩ => ⟨S2000x512, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2x256, .f32⟩
  | .local _ .vmem, ⟨23, _⟩ => ⟨S2x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2x256, .f32⟩
  | .local _ .vmem, ⟨29, _⟩ => ⟨S1x256, .f32⟩
  | .local _ .vmem, ⟨30, _⟩ => ⟨S1x256, .f32⟩
  | .local _ .vmem, ⟨31, _⟩ => ⟨S2000x256, .f32⟩
  | .local _ .vmem, ⟨32, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem5_1 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![5], ![false]⟩

def k3_cond3 (i : grid3.Coords) : BitVec 1 :=
  let arg0 : BitVec 32 := BitVec.ofNat 32 (i 0).val
  let c4_i32 : BitVec 32 := 4#32
  let v16 : BitVec 1 := Scalar.cmpi .eq arg0 c4_i32
  let v17 : BitVec 32 := Scalar.extui v16
  let c0_i32_7 : BitVec 32 := 0#32
  let v18 : BitVec 1 := Scalar.cmpi .ne v17 c0_i32_7
  v18

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  slices_S528x256_S256x256_0_0 : S528x256.Slices ![0, 0] S256x256
  concatenates_S256x256_S256x256_S256x512_d1 : Shape.Concatenates [S256x256, S256x256] S256x512 1
  slices_S528x256_S256x256_256_0 : S528x256.Slices ![256, 0] S256x256
  slices_S528x256_S16x256_512_0 : S528x256.Slices ![512, 0] S16x256
  concatenates_S16x256_S16x256_S16x512_d1 : Shape.Concatenates [S16x256, S16x256] S16x512 1
  concatenates_S256_S256_S512_d0 : Shape.Concatenates [S256, S256] S512 0
  shapeCasts_S512_S1x512 : S512.ShapeCasts S1x512
  inb_S2000x256_S2000x256_0_0 : ∀ a, (![0, 0] : Fin 2 → Nat) a + S2000x256.size a ≤ S2000x256.size a
  h_S2000x256 : 0 < S2000x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  inb_S2000x16_S2000x16_0_0 : ∀ a, (![0, 0] : Fin 2 → Nat) a + S2000x16.size a ≤ S2000x16.size a
  h_S2000x16 : 0 < S2000x16.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  bcast_S_S160000 : S_.BroadcastsInDim S160000 (![] : Fin 0 → Fin S160000.rank)
  bcast_S160000_S160000x1_0 : S160000.BroadcastsInDim S160000x1 (![0] : Fin 1 → Fin S160000x1.rank)
  shapeCasts_S2000x512_S2000x512 : S2000x512.ShapeCasts S2000x512
  slices_S2000x512_o0_0_S2000x256 : S2000x512.Slices ![0, 0] S2000x256
  slices_S2000x512_o0_256_S2000x256 : S2000x512.Slices ![0, 256] S2000x256
  bcast_S_S10000x256 : S_.BroadcastsInDim S10000x256 (![] : Fin 0 → Fin S10000x256.rank)
  shapeCasts_S2000x256_S2000x256 : S2000x256.ShapeCasts S2000x256
  reduces_S2000x256_S256 : S2000x256.Reduces [0] S256
  shapeCasts_S256_S1x256 : S256.ShapeCasts S1x256
  concatenates_S1x256_S1x256_S2x256_d0 : Shape.Concatenates [S1x256, S1x256] S2x256 0
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S2x256_S1x256_0_0 : ∀ a, (![0, 0] : Fin 2 → Nat) a + S1x256.size a ≤ S2x256.size a
  h_S1x256 : 0 < S1x256.numel
  shapeCasts_S1x256_S1x256 : S1x256.ShapeCasts S1x256
  inb_S2x256_S1x256_1_0 : ∀ a, (![1, 0] : Fin 2 → Nat) a + S1x256.size a ≤ S2x256.size a
  broadcasts_S1x256_S2000x256 : S1x256.Broadcasts S2000x256
  inb_S1x256_S1x256_0_0 : ∀ a, (![0, 0] : Fin 2 → Nat) a + S1x256.size a ≤ S1x256.size a
  dot_S2000x256_S256x512_S2000x512_1_0_0_1_n_n_wf : DotDims.WF S2000x256 S256x512 S2000x512 [1] [0] [0] [1] [] []
  dot_S2000x16_S16x512_S2000x512_1_0_0_1_n_n_wf : DotDims.WF S2000x16 S16x512 S2000x512 [1] [0] [0] [1] [] []
  gather_S10000x512_S160000x1_S160000x512_1_0_n_n_0_1_1512_wf : GatherDims.WF S10000x512 S160000x1 S160000x512 [1] [0] [] [0] [] 1 ![1, 512]
  scatter_S10000x256_S160000x1_S160000x256_1_0_0_1_wf : ScatterDims.WF S10000x256 S160000x1 S160000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S10000x512.size a
  hwx0_4 : ∀ i : grid0.Coords, EltTy.bits .f32 = 32 ∨ (Rect.block (s := S10000x512) S2000x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S10000x512.size a
  hwx0_5 : ∀ i : grid0.Coords, EltTy.bits .f32 = 32 ∨ (Rect.block (s := S10000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S160000x16.size a
  hwx1_0 : ∀ i : grid1.Coords, EltTy.bits .f32 = 32 ∨ (Rect.block (s := S160000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S16x512.size a
  hwx1_1 : ∀ i : grid1.Coords, EltTy.bits .f32 = 32 ∨ (Rect.block (s := S16x512) S16x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S160000x512.size a
  hwx1_2 : ∀ i : grid1.Coords, EltTy.bits .f32 = 32 ∨ (Rect.block (s := S160000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S160000x512.size a
  hwx2_0 : ∀ i : grid2.Coords, EltTy.bits .f32 = 32 ∨ (Rect.block (s := S160000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S160000x256.size a
  hwx2_1 : ∀ i : grid2.Coords, EltTy.bits .f32 = 32 ∨ (Rect.block (s := S160000x256) S2000x256.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S10000x256.size a
  hwx3_0 : ∀ i : grid3.Coords, EltTy.bits .f32 = 32 ∨ (Rect.block (s := S10000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S10000x256.size a
  hwx3_1 : ∀ i : grid3.Coords, EltTy.bits .f32 = 32 ∨ (Rect.block (s := S10000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2x256.size a ≤ S2x256.size a
  hwx3_2 : ∀ i : grid3.Coords, EltTy.bits .f32 = 32 ∨ (Rect.block (s := S2x256) S2x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S10000x256.size a
  hwx4_0 : ∀ i : grid4.Coords, EltTy.bits .f32 = 32 ∨ (Rect.block (s := S10000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S10000x256.size a
  hwx4_1 : ∀ i : grid4.Coords, EltTy.bits .f32 = 32 ∨ (Rect.block (s := S10000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2x256.size a ≤ S2x256.size a
  hwx4_2 : ∀ i : grid4.Coords, EltTy.bits .f32 = 32 ∨ (Rect.block (s := S2x256) S2x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S10000x256.size a
  hwx4_5 : ∀ i : grid4.Coords, EltTy.bits .f32 = 32 ∨ (Rect.block (s := S10000x256) S2000x256.size (cc4_transform_5 i) (hinb4_5 i)).WholeWords (EltTy.packing .f32)

variable [Facts₀]

def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x16_S16x512_S2000x512_1_0_0_1_n_n : DotDims S2000x16 S16x512 S2000x512 where
  lhsContracting := [1]
  rhsContracting := [0]
  lhsNonContracting := [0]
  rhsNonContracting := [1]
  lhsBatch := []
  rhsBatch := []
  wf := dot_S2000x16_S16x512_S2000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S2000x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S16x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v32) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2000x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v36) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S2x256.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond3 i == 1#1) | ⟨_ + 3, h⟩ => absurd h (Nat.not_lt.2 (Nat.le_add_left _ _))

abbrev win4_0 : Pipeline.Window sig grid4 :=
  Pipeline.Window.ofSpec (Memref.whole main_v36) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S2x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v38) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v39) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v40) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S10000x256 : Shape := ⟨2, ![10000, 256]⟩
abbrev S2x160000 : Shape := ⟨2, ![2, 160000]⟩
abbrev S160000x16 : Shape := ⟨2, ![160000, 16]⟩
abbrev S528x256 : Shape := ⟨2, ![528, 256]⟩
abbrev S256 : Shape := ⟨1, ![256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x256 : Shape := ⟨2, ![160000, 256]⟩
abbrev S160000x528 : Shape := ⟨2, ![160000, 528]⟩
abbrev S1x256 : Shape := ⟨2, ![1, 256]⟩

abbrev nBuf : Space → Nat
  | .hbm => 122
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000x16, .f32⟩
  | .hbm, ⟨3, _⟩ => ⟨S528x256, .f32⟩
  | .hbm, ⟨4, _⟩ => ⟨S256, .f32⟩
  | .hbm, ⟨5, _⟩ => ⟨S528x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x160000, .i32⟩
  | .hbm, ⟨10, _⟩ => ⟨S160000, .i32⟩
  | .hbm, ⟨11, _⟩ => ⟨S1x160000, .i32⟩
  | .hbm, ⟨12, _⟩ => ⟨S160000, .i32⟩
  | .hbm, ⟨13, _⟩ => ⟨S_, .i32⟩
  | .hbm, ⟨14, _⟩ => ⟨S160000, .i32⟩
  | .hbm, ⟨15, _⟩ => ⟨S160000, .i1⟩
  | .hbm, ⟨16, _⟩ => ⟨S_, .i32⟩
  | .hbm, ⟨17, _⟩ => ⟨S160000, .i32⟩
  | .hbm, ⟨18, _⟩ => ⟨S160000, .i32⟩
  | .hbm, ⟨19, _⟩ => ⟨S160000, .i32⟩
  | .hbm, ⟨20, _⟩ => ⟨S160000x1, .i32⟩
  | .hbm, ⟨21, _⟩ => ⟨S160000x256, .f32⟩
  | .hbm, ⟨22, _⟩ => ⟨S_, .i32⟩
  | .hbm, ⟨23, _⟩ => ⟨S160000, .i32⟩
  | .hbm, ⟨24, _⟩ => ⟨S160000, .i1⟩
  | .hbm, ⟨25, _⟩ => ⟨S_, .i32⟩
  | .hbm, ⟨26, _⟩ => ⟨S160000, .i32⟩
  | .hbm, ⟨27, _⟩ => ⟨S160000, .i32⟩
  | .hbm, ⟨28, _⟩ => ⟨S160000, .i32⟩
  | .hbm, ⟨29, _⟩ => ⟨S160000x1, .i32⟩
  | .hbm, ⟨30, _⟩ => ⟨S160000x256, .f32⟩
  | .hbm, ⟨31, _⟩ => ⟨S160000x528, .f32⟩
  | .hbm, ⟨32, _⟩ => ⟨S160000x256, .f32⟩
  | .hbm, ⟨33, _⟩ => ⟨S1x256, .f32⟩
  | .hbm, ⟨34, _⟩ => ⟨S160000x256, .f32⟩
  | .hbm, ⟨35, _⟩ => ⟨S160000x256, .f32⟩
  | .hbm, ⟨36, _⟩ => ⟨S160000x256, .f32⟩
  | .hbm, ⟨37, _⟩ => ⟨S160000x256, .f32⟩
  | .hbm, ⟨38, _⟩ => ⟨S_, .f32⟩
  | .hbm, ⟨39, _⟩ => ⟨S160000x256, .f32⟩
  | .hbm, ⟨40, _⟩ => ⟨S160000x256, .f32⟩
  | .hbm, ⟨41, _⟩ => ⟨S_, .f32⟩
  | .hbm, ⟨42, _⟩ => ⟨S160000x256, .f32⟩
  | .hbm, ⟨43, _⟩ => ⟨S160000x256, .f32⟩
  | .hbm, ⟨44, _⟩ => ⟨S160000x256, .f32⟩
  | .hbm, ⟨45, _⟩ => ⟨S1x256, .f32⟩
  | .hbm, ⟨46, _⟩ => ⟨S160000x256, .f32⟩
  | .hbm, ⟨47, _⟩ => ⟨S160000x256, .f32⟩
  | .hbm, ⟨48, _⟩ => ⟨S_, .f32⟩
  | .hbm, ⟨49, _⟩ => ⟨S160000x256, .f32⟩
  | .hbm, ⟨50, _⟩ => ⟨S160000x256, .f32⟩
  | .hbm, ⟨51, _⟩ => ⟨S160000x256, .f32⟩
  | .hbm, ⟨52, _⟩ => ⟨S160000x256, .f32⟩
  | .hbm, ⟨53, _⟩ => ⟨S160000x256, .i1⟩
  | .hbm, ⟨54, _⟩ => ⟨S160000x256, .f32⟩
  | .hbm, ⟨55, _⟩ => ⟨S160000x256, .f32⟩
  | .hbm, ⟨56, _⟩ => ⟨S160000x256, .f32⟩
  | .hbm, ⟨57, _⟩ => ⟨S160000x256, .f32⟩
  | .hbm, ⟨58, _⟩ => ⟨S160000x256, .f32⟩
  | .hbm, ⟨59, _⟩ => ⟨S160000x256, .f32⟩
  | .hbm, ⟨60, _⟩ => ⟨S160000x256, .f32⟩
  | .hbm, ⟨61, _⟩ => ⟨S160000x256, .f32⟩
  | .hbm, ⟨62, _⟩ => ⟨S160000x256, .f32⟩
  | .hbm, ⟨63, _⟩ => ⟨S_, .f32⟩
  | .hbm, ⟨64, _⟩ => ⟨S10000x256, .f32⟩
  | .hbm, ⟨65, _⟩ => ⟨S160000x1, .i32⟩
  | .hbm, ⟨66, _⟩ => ⟨S10000x256, .f32⟩
  | .hbm, ⟨67, _⟩ => ⟨S10000x256, .f32⟩
  | .hbm, ⟨68, _⟩ => ⟨S_, .f32⟩
  | .hbm, ⟨69, _⟩ => ⟨S256, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S_, .i32⟩
  | .hbm, ⟨74, _⟩ => ⟨S_, .f32⟩
  | .hbm, ⟨75, _⟩ => ⟨S256, .f32⟩
  | .hbm, ⟨76, _⟩ => ⟨S1x256, .f32⟩
  | .hbm, ⟨77, _⟩ => ⟨S_, .f32⟩
  | .hbm, ⟨78, _⟩ => ⟨S1x256, .f32⟩
  | .hbm, ⟨79, _⟩ => ⟨S1x256, .f32⟩
  | .hbm, ⟨80, _⟩ => ⟨S10000x256, .f32⟩
  | .hbm, ⟨81, _⟩ => ⟨S10000x256, .f32⟩
  | .hbm, ⟨82, _⟩ => ⟨S10000x256, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S256, .f32⟩
  | .hbm, ⟨88, _⟩ => ⟨S256, .f32⟩
  | .hbm, ⟨89, _⟩ => ⟨S256, .f32⟩
  | .hbm, ⟨90, _⟩ => ⟨S_, .f32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S256, .f32⟩
  | .hbm, ⟨95, _⟩ => ⟨S256, .f32⟩
  | .hbm, ⟨96, _⟩ => ⟨S1x256, .f32⟩
  | .hbm, ⟨97, _⟩ => ⟨S10000x256, .f32⟩
  | .hbm, ⟨98, _⟩ => ⟨S10000x256, .f32⟩
  | .hbm, ⟨99, _⟩ => ⟨S_, .f32⟩
  | .hbm, ⟨100, _⟩ => ⟨S256, .f32⟩
  | .hbm, ⟨101, _⟩ => ⟨S256, .f32⟩
  | .hbm, ⟨102, _⟩ => ⟨S256, .f32⟩
  | .hbm, ⟨103, _⟩ => ⟨S1x256, .f32⟩
  | .hbm, ⟨104, _⟩ => ⟨S10000x256, .f32⟩
  | .hbm, ⟨105, _⟩ => ⟨S10000x256, .f32⟩
  | .hbm, ⟨106, _⟩ => ⟨S1x256, .f32⟩
  | .hbm, ⟨107, _⟩ => ⟨S10000x256, .f32⟩
  | .hbm, ⟨108, _⟩ => ⟨S10000x256, .f32⟩
  | .hbm, ⟨109, _⟩ => ⟨S1x256, .f32⟩
  | .hbm, ⟨110, _⟩ => ⟨S10000x256, .f32⟩
  | .hbm, ⟨111, _⟩ => ⟨S10000x256, .f32⟩
  | .hbm, ⟨112, _⟩ => ⟨S10000x256, .f32⟩
  | .hbm, ⟨113, _⟩ => ⟨S10000x256, .f32⟩
  | .hbm, ⟨114, _⟩ => ⟨S_, .f32⟩
  | .hbm, ⟨115, _⟩ => ⟨S10000x256, .f32⟩
  | .hbm, ⟨116, _⟩ => ⟨S10000x256, .f32⟩
  | .hbm, ⟨117, _⟩ => ⟨S_, .f32⟩
  | .hbm, ⟨118, _⟩ => ⟨S10000x256, .f32⟩
  | .hbm, ⟨119, _⟩ => ⟨S10000x256, .f32⟩
  | .hbm, ⟨120, _⟩ => ⟨S10000x256, .f32⟩
  | .hbm, ⟨121, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_5 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_c_7 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_cst_2 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_cst_3 : Ref sig .tc := ⟨.hbm, 90, rfl⟩
abbrev main_call1_v12 : Ref sig .tc := ⟨.hbm, 91, rfl⟩
abbrev main_call1_cst_4 : Ref sig .tc := ⟨.hbm, 92, rfl⟩
abbrev main_call1_call0_v0 : Ref sig .tc := ⟨.hbm, 93, rfl⟩
abbrev main_call1_call0_v1 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_8 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_call2_v0 : Ref sig .tc := ⟨.hbm, 112, rfl⟩
abbrev main_call2_v1 : Ref sig .tc := ⟨.hbm, 113, rfl⟩
abbrev main_call2_cst : Ref sig .tc := ⟨.hbm, 114, rfl⟩
abbrev main_call2_v2 : Ref sig .tc := ⟨.hbm, 115, rfl⟩
abbrev main_call2_v3 : Ref sig .tc := ⟨.hbm, 116, rfl⟩
abbrev main_call2_cst_0 : Ref sig .tc := ⟨.hbm, 117, rfl⟩
abbrev main_call2_v4 : Ref sig .tc := ⟨.hbm, 118, rfl⟩
abbrev main_call2_v5 : Ref sig .tc := ⟨.hbm, 119, rfl⟩
abbrev main_v58 : Ref sig .tc := ⟨.hbm, 120, rfl⟩
abbrev main_v59 : Ref sig .tc := ⟨.hbm, 121, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  concatenates_S160000x256_S160000x256_S160000x16_S160000x528_d1 : Shape.Concatenates [S160000x256, S160000x256, S160000x16] S160000x528 1
  bcast_S256_S1x256_1 : S256.BroadcastsInDim S1x256 (![1] : Fin 1 → Fin S1x256.rank)
  bcast_S1x256_S160000x256_0_1 : S1x256.BroadcastsInDim S160000x256 (![0, 1] : Fin 2 → Fin S160000x256.rank)
  bcast_S_S160000x256 : S_.BroadcastsInDim S160000x256 (![] : Fin 0 → Fin S160000x256.rank)
  bcast_S_S10000x256 : S_.BroadcastsInDim S10000x256 (![] : Fin 0 → Fin S10000x256.rank)
  reducesTo_S10000x256_S256_d0 : S10000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S1x256_S10000x256_0_1 : S1x256.BroadcastsInDim S10000x256 (![0, 1] : Fin 2 → Fin S10000x256.rank)
  gather_S10000x256_S160000x1_S160000x256_1_0_n_n_0_1_1256_wf : GatherDims.WF S10000x256 S160000x1 S160000x256 [1] [0] [] [0] [] 1 ![1, 256]
  dot_S160000x528_S528x256_S160000x256_1_0_0_1_n_n_wf : DotDims.WF S160000x528 S528x256 S160000x256 [1] [0] [0] [1] [] []
  scatter_S10000x256_S160000x1_S160000x256_1_0_0_1_wf : ScatterDims.WF S10000x256 S160000x1 S160000x256 [1] [0] [0] 1

variable [Facts₀]

def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S160000x528_S528x256_S160000x256_1_0_0_1_n_n : DotDims S160000x528 S528x256 S160000x256 where
  lhsContracting := [1]
  rhsContracting := [0]
  lhsNonContracting := [0]
  rhsNonContracting := [1]
  lhsBatch := []
  rhsBatch := []
  wf := dot_S160000x528_S528x256_S160000x256_1_0_0_1_n_n_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

class Facts : Prop extends Facts₀ where

variable [Facts]
-- ==== Proof.KReg0.lean ====
import proofs.«150297_g64080912056811_cont_9to1c4b_125_48_alg».proof.Proof.Gen.Kernel.Launch
import proofs.«150297_g64080912056811_cont_9to1c4b_125_48_alg».proof.Proof.Gen.Kernel.Skeleton
import proofs.«150297_g64080912056811_cont_9to1c4b_125_48_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2000x256 := Rect.unit (s := S2000x256) ![0, 0] S2000x256.size inb_S2000x256_S2000x256_0_0
abbrev r0_w : Rect S256x512 := Rect.unit (s := S256x512) ![0, 0] S256x512.size inb_S256x512_S256x512_0_0
abbrev r0_b : Rect S1x512 := Rect.unit (s := S1x512) ![0, 0] S1x512.size inb_S1x512_S1x512_0_0
abbrev r0_out : Rect S2000x512 := Rect.unit (s := S2000x512) ![0, 0] S2000x512.size inb_S2000x512_S2000x512_0_0

def out0_4 (x0 : Vec F S2000x256 .f32) (x1 : Vec F S256x512 .f32) (x3 : Vec F S1x512 .f32) : Vec F S2000x512 .f32 :=
  View.canon [⟨r0_out, k0_pay1 (View.ld x0 r0_x) (View.ld x1 r0_w) (View.ld x3 r0_b)⟩]

def out0_5 (x0 : Vec F S2000x256 .f32) (x2 : Vec F S256x512 .f32) : Vec F S2000x512 .f32 :=
  View.canon [⟨r0_out, k0_pay2 (View.ld x0 r0_x) (View.ld x2 r0_w)⟩]

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 3 t)
    | ⟨5, _⟩ => out0_5 (iblk0 V c 0 t) (iblk0 V c 2 t)
  Φ _ := Pipeline.ΦA spec0 c
  q _ := fullShare
  owed _ := 0

theorem A_eq0 (w : Fin cfg0.W) : (dat0 V c).A w = V c (Pipeline.arrRef spec0 w) := by
  dsimp only [dat0]

variable (t : Fin cfg0.N)

theorem after0_4 : (dat0 V c).after 4 t = out0_4 (iblk0 V c 0 t) (iblk0 V c 1 t) (iblk0 V c 3 t) := by dsimp only [dat0]
theorem after0_5 : (dat0 V c).after 5 t = out0_5 (iblk0 V c 0 t) (iblk0 V c 2 t) := by dsimp only [dat0]

theorem before0_0 (d) : (dat0 V c).before 0 t d = iblk0 V c 0 t :=
  (dat0 V c).before_in_eq_fetched 0 rfl (fun _ => rfl) (fun _ _ _ => rfl) (fun _ => rfl) t d
theorem before0_1 (d) : (dat0 V c).before 1 t d = iblk0 V c 1 t :=
  (dat0 V c).before_in_eq_fetched 1 rfl (fun _ => rfl) (fun _ _ _ => rfl) (fun _ => rfl) t d
theorem before0_2 (d) : (dat0 V c).before 2 t d = iblk0 V c 2 t :=
  (dat0 V c).before_in_eq_fetched 2 rfl (fun _ => rfl) (fun _ _ _ => rfl) (fun _ => rfl) t d
theorem before0_3 (d) : (dat0 V c).before 3 t d = iblk0 V c 3 t :=
  (dat0 V c).before_in_eq_fetched 3 rfl (fun _ => rfl) (fun _ _ _ => rfl) (fun _ => rfl) t d

theorem body_obligation0 : BodyObligation (dat0 (F := F) V c) (defs₀ (F := F)) Variants.none () Set.univ := fun t => by
  rw [bigSep_W0, bigSep_W0]
  simp only [before0_0, before0_1, before0_2, before0_3]
  dsimp only [dat0]
  show _ ⊢ wp _ _ _ (bodyAt0 t) _
  unfold bodyAt0
  simp only [cc0__proj_node_body_eq_skeleton]
  unfold cc0__proj_node_body_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  rw [← hf0, ← hf1, ← hf2, ← hf3]
  sl_exec
  sl_step
  iframe HΦ
  isplitl [Ho]; · iexact Ho
  isplitl [H0]
  · iexists f0; iframe; ipureintro; rfl
  isplitl [H1]
  · iexists f1; iframe; ipureintro; rfl
  isplitl [H2]
  · iexists f2; iframe; ipureintro; rfl
  isplitl [H3]
  · iexists f3; iframe; ipureintro; rfl
  isplitl [H4]
  · iexists _; iframe; ipureintro
    exact View.read_writes_eq_canon _ _ _ (View.cover_of_tiled _ S2000x512.size (by rfl))
  iexists _; iframe; ipureintro
  exact View.read_writes_eq_canon _ _ _ (View.cover_of_tiled _ S2000x512.size (by rfl))

end Cert.Kernel.Hand

end
-- ==== Proof.KReg1.lean ====
import proofs.«150297_g64080912056811_cont_9to1c4b_125_48_alg».proof.Proof.Gen.Kernel.Launch
import proofs.«150297_g64080912056811_cont_9to1c4b_125_48_alg».proof.Proof.Gen.Kernel.Skeleton
import proofs.«150297_g64080912056811_cont_9to1c4b_125_48_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_in0 : Rect S2000x16 := Rect.unit (s := S2000x16) ![0, 0] S2000x16.size inb_S2000x16_S2000x16_0_0
abbrev r1_in1 : Rect S16x512 := Rect.unit (s := S16x512) ![0, 0] S16x512.size inb_S16x512_S16x512_0_0
abbrev r1_out : Rect S2000x512 := Rect.unit (s := S2000x512) ![0, 0] S2000x512.size inb_S2000x512_S2000x512_0_0

def out1_2 (x0 : Vec F S2000x16 .f32) (x1 : Vec F S16x512 .f32) : Vec F S2000x512 .f32 :=
  View.canon [⟨r1_out, k1_pay1 (View.ld x0 r1_in0) (View.ld x1 r1_in1)⟩]

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (w : Fin cfg1.W) : (dat1 V c).A w = V c (Pipeline.arrRef spec1 w) := by
  dsimp only [dat1]

variable (t : Fin cfg1.N)

theorem after1_2 : (dat1 V c).after 2 t = out1_2 (iblk1 V c 0 t) (iblk1 V c 1 t) := by dsimp only [dat1]

theorem before1_0 (d) : (dat1 V c).before 0 t d = iblk1 V c 0 t :=
  (dat1 V c).before_in_eq_fetched 0 rfl (fun _ => rfl) (fun _ _ _ => rfl) (fun _ => rfl) t d
theorem before1_1 (d) : (dat1 V c).before 1 t d = iblk1 V c 1 t :=
  (dat1 V c).before_in_eq_fetched 1 rfl (fun _ => rfl) (fun _ _ _ => rfl) (fun _ => rfl) t d

theorem body_obligation1 : BodyObligation (dat1 (F := F) V c) (defs₀ (F := F)) Variants.none () Set.univ := fun t => by
  rw [bigSep_W1, bigSep_W1]
  simp only [before1_0, before1_1]
  dsimp only [dat1]
  show _ ⊢ wp _ _ _ (bodyAt1 t) _
  unfold bodyAt1
  simp only [cc1__proj_edge_body_eq_skeleton]
  unfold cc1__proj_edge_body_skel owns
  iintro ⟨HΦ, Ho, ⟨%d0, %f0, %hf0, H0⟩, ⟨%d1, %f1, %hf1, H1⟩, ⟨%d2, %f2, -, H2⟩⟩
  rw [← hf0, ← hf1]
  sl_exec
  sl_step
  iframe HΦ
  isplitl [Ho]; · iexact Ho
  isplitl [H0]
  · iexists f0; iframe; ipureintro; rfl
  isplitl [H1]
  · iexists f1; iframe; ipureintro; rfl
  iexists _; iframe; ipureintro
  exact View.read_writes_eq_canon _ _ _ (View.cover_of_tiled _ S2000x512.size (by rfl))

end Cert.Kernel.Hand

end
-- ==== Proof.KReg2.lean ====
import proofs.«150297_g64080912056811_cont_9to1c4b_125_48_alg».proof.Proof.Gen.Kernel.Launch
import proofs.«150297_g64080912056811_cont_9to1c4b_125_48_alg».proof.Proof.Gen.Kernel.Skeleton
import proofs.«150297_g64080912056811_cont_9to1c4b_125_48_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_in : Rect S2000x512 := Rect.unit (s := S2000x512) ![0, 0] S2000x512.size inb_S2000x512_S2000x512_0_0
abbrev r2_out : Rect S2000x256 := Rect.unit (s := S2000x256) ![0, 0] S2000x256.size inb_S2000x256_S2000x256_0_0

def out2_1 (x0 : Vec F S2000x512 .f32) : Vec F S2000x256 .f32 :=
  View.canon [⟨r2_out, k2_pay1 (View.ld x0 r2_in)⟩]

def dat2 : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (w : Fin cfg2.W) : (dat2 V c).A w = V c (Pipeline.arrRef spec2 w) := by
  dsimp only [dat2]

variable (t : Fin cfg2.N)

theorem after2_1 : (dat2 V c).after 1 t = out2_1 (iblk2 V c 0 t) := by dsimp only [dat2]

theorem before2_0 (d) : (dat2 V c).before 0 t d = iblk2 V c 0 t :=
  (dat2 V c).before_in_eq_fetched 0 rfl (fun _ => rfl) (fun _ _ _ => rfl) (fun _ => rfl) t d

theorem body_obligation2 : BodyObligation (dat2 (F := F) V c) (defs₀ (F := F)) Variants.none () Set.univ := fun t => by
  rw [bigSep_W2, bigSep_W2]
  simp only [before2_0]
  dsimp only [dat2]
  show _ ⊢ wp _ _ _ (bodyAt2 t) _
  unfold bodyAt2
  simp only [cc2__edge_act_body_eq_skeleton]
  unfold cc2__edge_act_body_skel owns
  iintro ⟨HΦ, Ho, ⟨%d0, %f0, %hf0, H0⟩, ⟨%d1, %f1, -, H1⟩⟩
  rw [← hf0]
  sl_exec
  sl_step
  iframe HΦ
  isplitl [Ho]; · iexact Ho
  isplitl [H0]
  · iexists f0; iframe; ipureintro; rfl
  iexists _; iframe; ipureintro
  exact View.read_writes_eq_canon _ _ _ (View.cover_of_tiled _ S2000x256.size (by rfl))

end Cert.Kernel.Hand

end
-- ==== Proof.KReg3.lean ====
import proofs.«150297_g64080912056811_cont_9to1c4b_125_48_alg».proof.Proof.Gen.Kernel.Launch
import proofs.«150297_g64080912056811_cont_9to1c4b_125_48_alg».proof.Proof.Gen.Kernel.Skeleton
import proofs.«150297_g64080912056811_cont_9to1c4b_125_48_alg».proof.Proof.Gen.Kernel.Points
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_acc : Rect S2x256 := Rect.unit (s := S2x256) ![0, 0] S2x256.size inb_S2x256_S2x256_0_0

theorem offs3_zero : (![0, 0] : Fin 2 → Nat) = fun _ => 0 := funext fun a => by fin_cases a <;> rfl

-- writing the whole two-row array and reading it back gives what was written
theorem wr3_acc (m : Memref sig .tc .vmem S2x256 .f32) (f : m.view.ty.Contents (Elt F)) (w : Vec F S2x256 .f32) :
    m.view.read (Elt F) (m.view.writes (Elt F) f [⟨r3_acc, w⟩]) = w :=
  (View.read_writes_eq_canon _ _ _ fun y => ⟨⟨r3_acc, w⟩, List.mem_singleton_self _, View.mem_set_unit_zero offs3_zero inb_S2x256_S2x256_0_0 y⟩).trans
    (View.canon_unit_zero (Val := Elt F) offs3_zero _ w)

abbrev cond3_0 (i : grid3.Coords) : Prop := (Scalar.cmpi .ne (Scalar.extui (Scalar.cmpi .eq (BitVec.ofNat 32 (i 0).val) 0#32)) 0#32) = 1#1
abbrev cond3_1 (i : grid3.Coords) : Prop := (Scalar.cmpi .ne (Scalar.extui (Scalar.cmpi .sgt (BitVec.ofNat 32 (i 0).val) 0#32)) 0#32) = 1#1
abbrev cond3_2 (i : grid3.Coords) : Prop := k3_cond3 i = 1#1

-- the three kinds of point (first, middle, last) and the body's conditions at each
theorem cases3 : ∀ t : Fin cfg3.N, (t.val = 0 ∧ cond3_0 (grid3.coords t) ∧ ¬cond3_1 (grid3.coords t) ∧ ¬cond3_2 (grid3.coords t))
    ∨ (t.val ≠ 0 ∧ ¬cond3_0 (grid3.coords t) ∧ cond3_1 (grid3.coords t) ∧ ¬cond3_2 (grid3.coords t))
    ∨ (t.val ≠ 0 ∧ ¬cond3_0 (grid3.coords t) ∧ cond3_1 (grid3.coords t) ∧ cond3_2 (grid3.coords t)) :=
  (by decide +kernel : ∀ t : Fin grid3.N, _)

theorem out3 : ∀ t : Fin cfg3.N, (cond3_2 (grid3.coords t) ∧ cfg3.idle 2 (grid3.coords t) = false)
    ∨ (¬cond3_2 (grid3.coords t) ∧ cfg3.idle 2 (grid3.coords t) = true ∧ (cfg3.win 2).flush t = false) := by decide +kernel

-- the accumulator after point t: the two blocks' sums at the first point, added to the accumulator s after it
def new3 (t : Fin cfg3.N) (x0 x1 : Vec F S2000x256 .f32) (s : Vec F S2x256 .f32) : Vec F S2x256 .f32 :=
  if t.val = 0 then k3_pay2 x0 x1 else k3_pay3 x0 x1 s

-- the body's run at any point: the accumulator goes from s to new3, and the output takes it at the last point only
theorem sound_kernel3 (c : Dev nD) (t : Fin cfg3.N) (E : Set ℕ)
    (arg1 arg2 : Memref sig .tc .vmem S2000x256 .f32) (harg1 : arg1.IsWhole) (harg2 : arg2.IsWhole)
    (arg3 arg4 : Memref sig .tc .vmem S2x256 .f32) (harg3 : arg3.IsWhole) (harg4 : arg4.IsWhole)
    (x0 x1 : Vec F S2000x256 .f32) (xo s : Vec F S2x256 .f32) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare s
        ∗ (iprop(owns (c : Thread nD τ) arg1 fullShare x0 ∗ owns (c : Thread nD τ) arg2 fullShare x1
            ∗ owns (c : Thread nD τ) arg3 fullShare (if cond3_2 (grid3.coords t) then new3 t x0 x1 s else xo)
            ∗ owns (c : Thread nD τ) arg4 fullShare (new3 t x0 x1 s)) -∗ K ⟨⟩))
      ⊢ wp frame (wpE (defs₀ (F := F)) Variants.none c none) E (cc3__stats_body (grid3.coords t) arg1 harg1 arg2 harg2 arg3 harg3 arg4 harg4) K := by
  simp only [cc3__stats_body_eq_skeleton]; unfold cc3__stats_body_skel owns new3
  rcases cases3 t with ⟨hz, hc0, hc1, hc2⟩ | ⟨hz, hc0, hc1, hc2⟩ | ⟨hz, hc0, hc1, hc2⟩ <;>
  ( first | rw [if_pos hz] | rw [if_neg hz]
    first | rw [if_pos hc2] | rw [if_neg hc2]
    iintro ⟨⟨%f0, %hf0, H0⟩, ⟨%f1, %hf1, H1⟩, ⟨%f2, %hf2, H2⟩, ⟨%f3, %hf3, H3⟩, Hk⟩
    subst hf0; subst hf1; subst hf2; subst hf3
    sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
      | rfl
      | ( refine (wr3_acc _ _ _).trans ?_
          sl_unfold_run_names
          refine (View.readCov_unit_zero (Val := Elt F) _ offs3_zero _ _).trans ?_
          congr 1 <;> exact View.ld_unit_zero (Val := Elt F) offs3_zero _ _)
    iexists _; isplitr
    swap; · iexact H3
    ipureintro
    refine (wr3_acc _ _ _).trans ?_
    congr 1 <;> exact View.ld_unit_zero (Val := Elt F) offs3_zero _ _)

def accAt3 (c : Dev nD) : (n : ℕ) → n < cfg3.N → Vec F S2x256 .f32
  | 0, hn => k3_pay2 (iblk3 V c 0 ⟨0, hn⟩) (iblk3 V c 1 ⟨0, hn⟩)
  | n + 1, hn => k3_pay3 (iblk3 V c 0 ⟨n + 1, hn⟩) (iblk3 V c 1 ⟨n + 1, hn⟩) (accAt3 c n (Nat.lt_of_succ_lt hn))

-- one step of the accumulation, given the previous point's value (nothing asked at the first point)
theorem accAt3_step (c : Dev nD) (t : Fin cfg3.N) (s : Vec F S2x256 .f32) (hs : ∀ m (h : t.val = m + 1), s = accAt3 V c m (by omega)) :
    new3 t (iblk3 V c 0 t) (iblk3 V c 1 t) s = accAt3 V c t.val t.isLt := by
  obtain ⟨n, hn⟩ := t
  unfold new3
  cases n with
  | zero => rfl
  | succ n => rw [if_neg (Nat.succ_ne_zero n), hs n rfl]; rfl

theorem PhiA3_eq (c : Dev nD) :
    (Pipeline.ΦA spec3 c : sProp 𝕄)
      = iprop(iprop((∃ d, owns (c : Thread nD τ) (Memref.whole cc3_scratch0) fullShare d) ∗ Pipeline.scopedRestBut spec3 c [cc3_scratch0]) ∗ (∃ r, prngReg c r)) := by
  unfold Pipeline.ΦA; rw [scopedRest3_split]; simp only [owns_whole]; try rfl

-- between points the accumulator is what the point before left (anything before the first)
def PhiS3 (c : Dev nD) (p : Fin (cfg3.N + 1)) : sProp 𝕄 :=
  iprop(iprop((∃ s, ⌜∀ m (h : p.val = m + 1), s = accAt3 V c m (by omega)⌝ ∗ owns (c : Thread nD τ) (Memref.whole cc3_scratch0) fullShare s)
    ∗ Pipeline.scopedRestBut spec3 c [cc3_scratch0]) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAt3 V c t.val t.isLt
  Φ := PhiS3 V c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accAt3 V c t.val t.isLt := by dsimp only [dat3]

theorem before3_0 (c : Dev nD) (t : Fin cfg3.N) (d) : (dat3 V c).before 0 t d = iblk3 V c 0 t :=
  (dat3 V c).before_fetched 0 t (fetch3_0 t) d
theorem before3_1 (c : Dev nD) (t : Fin cfg3.N) (d) : (dat3 V c).before 1 t d = iblk3 V c 1 t :=
  (dat3 V c).before_fetched 1 t (fetch3_1 t) d

-- the output: the accumulator at the last point, unchanged at the others
theorem leaves3_2 (c : Dev nD) (t : Fin cfg3.N) (d) :
    owns (c : Thread nD τ) (st3_2 t) fullShare (if cond3_2 (grid3.coords t) then accAt3 V c t.val t.isLt else (dat3 V c).before 2 t d)
      ⊢ (dat3 V c).leavesExact 2 t := by
  rcases out3 t with ⟨h, hi⟩ | ⟨h, hi, hf⟩
  · rw [if_pos h]; unfold Dat.leavesExact; rw [hi, after3_2]
  · rw [if_neg h, Dat.leavesExact_idle _ 2 t hi hf]
    iintro H; iexists d; iexact H

-- the body's obligation at every point, from the run above and the accumulation step
theorem body_obligation3 (c : Dev nD) : BodyObligation (dat3 (F := F) V c) (defs₀ (F := F)) Variants.none () Set.univ := fun t => by
  rw [bigSep_W3, bigSep_W3]
  show _ ⊢ wp frame _ Set.univ (bodyAt3 t) _
  unfold bodyAt3
  simp only [before3_0, before3_1, after3_0, after3_1, show (dat3 V c).Φ = PhiS3 V c from rfl, PhiS3, Fin.coe_castSucc, Fin.val_succ]
  iintro ⟨⟨⟨⟨%s, %hs, HS⟩, HR⟩, Hg⟩, Ho, ⟨%d0, H0⟩, ⟨%d1, H1⟩, ⟨%d2, H2⟩⟩
  iapply (sound_kernel3 c t Set.univ _ _ _ _ _ _ _ _ (iblk3 V c 0 t) (iblk3 V c 1 t) ((dat3 V c).before 2 t d2) s _)
  rw [accAt3_step V c t s hs]
  iframe H0 H1 H2 HS
  iintro ⟨H0, H1, H2, HS⟩
  iframe HR Hg H0 H1
  isplitl [HS]
  · iexists _; isplitr; swap; · iexact HS
    ipureintro; intro m h; obtain rfl := Nat.succ.inj h; rfl
  isplitl [Ho]; · iexact Ho
  iapply (leaves3_2 V c t d2); iexact H2

theorem hin3 (c : Dev nD) : Pipeline.ΦA spec3 c ⊢ (dat3 V c).Φ 0 := by
  rw [PhiA3_eq]; dsimp only [dat3, PhiS3]
  iintro ⟨⟨⟨%d, HS⟩, HR⟩, Hg⟩
  iframe HR Hg
  iexists d; isplitr; · ipureintro; exact fun m h => absurd h (Nat.succ_ne_zero m).symm
  iexact HS

theorem hout3 (c : Dev nD) : (dat3 V c).Φ (Fin.last cfg3.N) ⊢ Pipeline.ΦA spec3 c := by
  rw [PhiA3_eq]; dsimp only [dat3, PhiS3]
  iintro ⟨⟨⟨%s, -, HS⟩, HR⟩, Hg⟩
  iframe HR Hg
  iexists s; iexact HS

end Cert.Kernel.Hand

end
-- ==== Proof.KReg4.lean ====
import proofs.«150297_g64080912056811_cont_9to1c4b_125_48_alg».proof.Proof.Gen.Kernel.Launch
import proofs.«150297_g64080912056811_cont_9to1c4b_125_48_alg».proof.Proof.Gen.Kernel.Skeleton
import proofs.«150297_g64080912056811_cont_9to1c4b_125_48_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_blk : Rect S2000x256 := Rect.unit (s := S2000x256) ![0, 0] S2000x256.size inb_S2000x256_S2000x256_0_0
abbrev r4_row0 : Rect S2x256 := Rect.unit (s := S2x256) ![0, 0] S1x256.size inb_S2x256_S1x256_0_0
abbrev r4_row1 : Rect S2x256 := Rect.unit (s := S2x256) ![1, 0] S1x256.size inb_S2x256_S1x256_1_0
abbrev r4_vec : Rect S1x256 := Rect.unit (s := S1x256) ![0, 0] S1x256.size inb_S1x256_S1x256_0_0

def out4_5 (x0 x1 : Vec F S2000x256 .f32) (x2 : Vec F S2x256 .f32) (x3 x4 : Vec F S1x256 .f32) : Vec F S2000x256 .f32 :=
  View.canon [⟨r4_blk, k4_pay1 (View.ld x1 r4_blk) (View.ld x0 r4_blk) (View.ld x2 r4_row0) (View.ld x2 r4_row1) (View.ld x3 r4_vec) (View.ld x4 r4_vec)⟩]

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (w : Fin cfg4.W) : (dat4 V c).A w = V c (Pipeline.arrRef spec4 w) := by
  dsimp only [dat4]

variable (t : Fin cfg4.N)

theorem after4_5 :
    (dat4 V c).after 5 t = out4_5 (iblk4 V c 0 t) (iblk4 V c 1 t) (iblk4 V c 2 t) (iblk4 V c 3 t) (iblk4 V c 4 t) := by dsimp only [dat4]

theorem before4_0 (d) : (dat4 V c).before 0 t d = iblk4 V c 0 t :=
  (dat4 V c).before_in_eq_fetched 0 rfl (fun _ => rfl) (fun _ _ _ => rfl) (fun _ => rfl) t d
theorem before4_1 (d) : (dat4 V c).before 1 t d = iblk4 V c 1 t :=
  (dat4 V c).before_in_eq_fetched 1 rfl (fun _ => rfl) (fun _ _ _ => rfl) (fun _ => rfl) t d
theorem before4_2 (d) : (dat4 V c).before 2 t d = iblk4 V c 2 t :=
  (dat4 V c).before_in_eq_fetched 2 rfl (fun _ => rfl) (fun _ _ _ => rfl) (fun _ => rfl) t d
theorem before4_3 (d) : (dat4 V c).before 3 t d = iblk4 V c 3 t :=
  (dat4 V c).before_in_eq_fetched 3 rfl (fun _ => rfl) (fun _ _ _ => rfl) (fun _ => rfl) t d
theorem before4_4 (d) : (dat4 V c).before 4 t d = iblk4 V c 4 t :=
  (dat4 V c).before_in_eq_fetched 4 rfl (fun _ => rfl) (fun _ _ _ => rfl) (fun _ => rfl) t d

theorem body_obligation4 : BodyObligation (dat4 (F := F) V c) (defs₀ (F := F)) Variants.none () Set.univ := fun t => by
  rw [bigSep_W4, bigSep_W4]
  simp only [before4_0, before4_1, before4_2, before4_3, before4_4]
  dsimp only [dat4]
  show _ ⊢ wp _ _ _ (bodyAt4 t) _
  unfold bodyAt4
  simp only [cc4__final_body_eq_skeleton]
  unfold cc4__final_body_skel owns
  simp only [k4_part1_eq_skeleton]; unfold k4_part1_skel
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [← hf0, ← hf1, ← hf2, ← hf3, ← hf4]
  sl_exec
  sl_step
  iframe HΦ
  isplitl [Ho]; · iexact Ho
  isplitl [H0]
  · iexists f0; iframe; ipureintro; rfl
  isplitl [H1]
  · iexists f1; iframe; ipureintro; rfl
  isplitl [H2]
  · iexists f2; iframe; ipureintro; rfl
  isplitl [H3]
  · iexists f3; iframe; ipureintro; rfl
  isplitl [H4]
  · iexists f4; iframe; ipureintro; rfl
  iexists _; iframe; ipureintro
  exact View.read_writes_eq_canon _ _ _ (View.cover_of_tiled _ S2000x256.size (by rfl))

end Cert.Kernel.Hand

end
-- ==== Proof.LibRegionSeg.lean ====
import Idealize.ShloMosaic.Lib.Pipeline.RegionsLoop
import Idealize.ShloMosaic.Lib.Pipeline.FrameSuffix

noncomputable section

namespace Cert.Lib

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} {U : Type} [URA U]
  {Λ₀ : Idealize.SL.Sem.Labels} {P : Type} [Fintype P]
  (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

local notation "𝕄" => MT nD τ sig Unit Val ℕ U ℕ

abbrev beside (c : Dev nD) : sProp 𝕄 :=
  iprop((∃ r, prngReg c r) ∗ ∃ W, owes (c : Thread nD τ) (0 : CellTallies nD τ sig Unit) W)

abbrev heldAt (W : Dev nD → Valuation τ sig Val) (c : Dev nD) : sProp 𝕄 :=
  iprop(StableHlo.held (c : Thread nD τ) (ucRefs τ sig) (W c) ∗ beside c)

-- The buffers after region p entered at W: its arrays at their final contents, every other buffer as entered.
abbrev after (p : P) (W : Dev nD → Valuation τ sig Val) (c : Dev nD) : Valuation τ sig Val :=
  withArrays (pin pcs a p).spec c (W c) fun w => (pdats p c).arrAt w (pin pcs a p).N

-- A kernel region as one item of the entry function: entered with the buffers at W, it leaves them at `after p W`.
def regionOf (p : P) (win : WinFacts (pin pcs a p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (arr_whole : ∀ w, ((pin pcs a p).spec w).arr.IsWhole)
    (hbody : ∀ c, BodyObligationLoose (pdats p c) defs₀ 𝒱₀ () Set.univ)
    (howed : ∀ c t, (pdats p c).owed t = 0)
    (hq : ∀ c w, (pdats p c).q w = fullShare)
    (hrec : ∀ c t, (pdats p c).recorded t = Set.univ)
    (hK : (pcs p).pre.K = 0)
    (W : Dev nD → Valuation τ sig Val)
    (hA : ∀ c w, (pdats p c).A w = W c (arrRef (pin pcs a p).spec w))
    (hin : ∀ c, (ΦA (pin pcs a p).spec c : sProp 𝕄) ⊢ (pdats p c).Φ 0)
    (hout : ∀ c, (pdats p c).Φ (Fin.last (pin pcs a p).N) ⊢ (ΦA (pin pcs a p).spec c : sProp 𝕄)) :
    RegionSeg pcs a pdats () defs₀ 𝒱₀ L lv p where
  win := win.to₀
  block_pos := block_pos
  stage_whole := stage_whole
  K := PEmpty
  osem k := k.elim
  ho := OwnSemFacts.none _
  hbody := hbody
  hwaits := hwaits_of_owed_zero _ _ _ _ L lv p howed
  pre := heldAt W
  post := heldAt (after pcs a pdats p W)
  X c := iprop(∃ r, prngReg c r)
  Y c := iprop(∃ r, prngReg c r)
  Z c := unscopedRest (Ix := Unit) (Name := ℕ) (U := U) (Lvl := ℕ) (pin pcs a p).spec c (fun b => W c b)
  hentry c := by
    rw [ownSems0_none]
    have hsplit := arrays_of_unscopedBufs pcs a pdats win arr_whole c ((pdats p c).share_full (hq c)) (fun b => W c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr
    · haveI : IsEmpty (Fin (pcs p).pre.K) := hK ▸ Fin.isEmpty
      unfold prefHeld; rw [Finset.univ_eq_empty, BI.bigSep_empty]; iempintro
    isplitl [HO]
    · unfold Dat.owesAt owesWithin
      rw [howed c 0]
      icases HO with ⟨%S, HO⟩; iexists S; isplitr; · ipureintro; rw [Dat.bound, hrec c 0]; exact fun _ _ => Or.inl trivial
      iexact HO
    isplitl [Hp]; · iexact Hp
    iexact Hrest
  hin c := by
    refine .trans ?_ (hin c)
    unfold ΦA
    iintro ⟨Hp, -, Hr⟩
    isplitl [Hr]; · iexact Hr
    iexact Hp
  hout c := by
    rw [ownSems0_none]
    refine (hout c).trans ?_
    unfold ΦA
    iintro ⟨Hr, Hp⟩
    isplitl [Hp]; · iexact Hp
    isplitr; · iempintro
    iexact Hr
  hexit c := by
    have hjoin := unscopedBufs_of_arrays pcs a win arr_whole c pdats ((pdats p c).share_full (hq c))
      (fun b => W c b) (fun b => after pcs a pdats p W c b) ((pdats p c).arrAt · (pin pcs a p).N)
      (fun w => (withArrays_arr _ win.arr_inj c (W c) (fun w => (pdats p c).arrAt w (pin pcs a p).N) w).symm)
      (fun b hb => withArrays_of_ne _ c (W c) (fun w => (pdats p c).arrAt w (pin pcs a p).N) b
        fun w e => hb (Finset.mem_image.mpr ⟨w, Finset.mem_univ _, e⟩))
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    rw [howed c (Fin.last _)]
    icases HO with ⟨%S, -, HO⟩; iexists S; iexact HO

section Run

variable [DecidableEq P] [∀ e, Nonempty (Val e)]
  (pcs : P → PCfg sig Λ₀ Val) (a : (p : P) → (pcs p).Adm)
  (pdats : (p : P) → (c : Dev nD) → Dat τ Val Unit ℕ (UR sig nD τ) ℕ (pin pcs a p) c)
  (defs₀ : Defs nD τ sig Val Λ₀) (𝒱₀ : Variants)

local notation "𝕄'" => MT nD τ sig Unit Val ℕ (UR sig nD τ) ℕ
local notation "Lz" => (fun _ => ∅ : GSem nD τ sig → Finset Unit)
local notation "lz" => (fun _ _ => 0 : GSem nD τ sig → Unit → ℕ)

-- A stretch of host operations as one item, entered with the buffers at W.
abbrev hostOf (ops : List (HloOp τ sig Val)) (hsub : ops.Forall fun op => op.bufs ⊆ StableHlo.tcRefs τ sig)
    (hfresh : ops.Forall fun op => op.fresh = ∅) (W : Dev nD → Valuation τ sig Val) :
    HostSeg (Name := ℕ) (U := UR sig nD τ) pcs defs₀ 𝒱₀ Lz lz :=
  HostSeg.ofOps _ _ _ _ _ (ucRefs τ sig) ops
    (fun op h => sub_ucRefs op ((List.forall_iff_forall_mem.mp hsub) op h))
    (fun op h => (List.forall_iff_forall_mem.mp hfresh) op h) W beside

-- Items chained from the launch memory to W': every weakly fair execution terminates, faults nowhere, and ends
-- with the buffers at W'.
theorem run_of (phinj : Function.Injective (cellOf (nD := nD) (τ := τ) (pin pcs a)))
    (m : (ℓ : Loc nD τ sig) → Buf Val ℓ) (ρ : Dev nD → PrngReg)
    (main : Dev nD → Prog (TpuEff nD τ sig Val (Sig Λ₀ P fun p => (pcs p).Adm) .tc) PUnit)
    (segs : List (Seg pcs a pdats () defs₀ 𝒱₀ Lz lz)) (hmain : ∀ c, main c = Seg.run segs) (hnd : (Seg.pipes segs).Nodup)
    (W' : Dev nD → Valuation τ sig Val)
    (hch : Seg.Chains (heldAt (U := UR sig nD τ) fun c b => m (c, b)) segs fun c =>
      iprop((StableHlo.held (c : Thread nD τ) (ucRefs τ sig) (W' c) ∗ ∃ r, prngReg c r) ∗ ∃ W, owes (c : Thread nD τ) (0 : CellTallies nD τ sig Unit) W)) :
    θ_run (Pipeline.defs pcs defs₀) (onTc (τ := τ) main) ⟨m, fun _ => 0, ρ⟩ (fun r => ∀ c : Dev nD,
      ∀ b ∈ ucRefs τ sig, r.2.mem (((c : Thread nD τ)).1, b) = W' c b) :=
  θ_run_regions_kit pcs a pdats () phinj emb₁ defs₀ 𝒱₀ Lz lz m ρ main segs
    (fun c Q => by rw [hmain c]) hnd
    (O₀ := 0) (hL := fun _ _ => rfl) (G := fun _ => iprop(emp))
    (u₀ := initOf (cells (pin pcs a) phinj) (launchToks (pin pcs a) phinj))
    (hu₀ := by
      iintro Hu; imodintro
      isplitl [Hu]
      · iapply (show (ownU _ : sProp 𝕄') ⊢ BI.own (emb₁ (initOf (cells (pin pcs a) phinj) (launchToks (pin pcs a) phinj))) from .rfl)
        iexact Hu
      iapply (show (BI.emp : sProp 𝕄') ⊢ bigSep Finset.univ (fun _ : Dev nD => (BI.emp : sProp 𝕄')) from by rw [BI.bigSep_emp_const])
      iempintro)
    (T₀ := heldAt fun c b => m (c, b))
    (Tₙ := fun c => iprop(StableHlo.held (c : Thread nD τ) (ucRefs τ sig) (W' c) ∗ ∃ r, prngReg c r))
    (hch := hch)
    (hinit := by
      refine initEach Lz lz fun c => ?_
      rw [show unscopedBufs c (fun b => m ((c : Thread nD τ).loc b)) = StableHlo.held (c : Thread nD τ) (ucRefs τ sig) (fun b => m (c, b))
        from unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = W' c b)
    (hfin := fun c s' => by
      iintro ⟨⟨Hh, -⟩, HSI⟩
      unfold StableHlo.held
      imodintro
      iapply (pointsTo_read_all (ucRefs τ sig) (fun b => (((c : Thread nD τ)).1, b)) (W' c) s')
      isplitl [Hh] <;> iassumption)
    (hQ := fun s h c => h c)

end Run

end Cert.Lib

end
-- ==== Proof.KRun.lean ====
import proofs.«150297_g64080912056811_cont_9to1c4b_125_48_alg».proof.Proof.KReg0
import proofs.«150297_g64080912056811_cont_9to1c4b_125_48_alg».proof.Proof.KReg1
import proofs.«150297_g64080912056811_cont_9to1c4b_125_48_alg».proof.Proof.KReg2
import proofs.«150297_g64080912056811_cont_9to1c4b_125_48_alg».proof.Proof.KReg3
import proofs.«150297_g64080912056811_cont_9to1c4b_125_48_alg».proof.Proof.KReg4
import proofs.«150297_g64080912056811_cont_9to1c4b_125_48_alg».proof.Proof.LibRegionSeg

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The buffers between the nine items: a host stretch applies its operations, a region changes its arrays only.
abbrev U0 : Dev nD → Valuation τ sig (Elt F) := fun c b => (s₀ m ρ).mem ((c : Dev nD), b)
abbrev U1 : Dev nD → Valuation τ sig (Elt F) := fun c => StableHlo.after hostOps0 (U0 m ρ c)
abbrev V1 : (c : Dev nD) → (b : Ref sig .tc) → Buf (Elt F) ((c : Thread nD τ).loc b) := fun c b => U1 m ρ c b
def U2 (c : Dev nD) : Valuation τ sig (Elt F) :=
  Pipeline.withArrays spec0 c (U1 m ρ c) fun w => (dat0 (V1 m ρ) c).arrAt w cfg0.N
abbrev V2 : (c : Dev nD) → (b : Ref sig .tc) → Buf (Elt F) ((c : Thread nD τ).loc b) := fun c b => U2 m ρ c b
def U3 (c : Dev nD) : Valuation τ sig (Elt F) :=
  Pipeline.withArrays spec1 c (U2 m ρ c) fun w => (dat1 (V2 m ρ) c).arrAt w cfg1.N
abbrev U4 : Dev nD → Valuation τ sig (Elt F) := fun c => StableHlo.after hostOps2 (U3 m ρ c)
abbrev V4 : (c : Dev nD) → (b : Ref sig .tc) → Buf (Elt F) ((c : Thread nD τ).loc b) := fun c b => U4 m ρ c b
def U5 (c : Dev nD) : Valuation τ sig (Elt F) :=
  Pipeline.withArrays spec2 c (U4 m ρ c) fun w => (dat2 (V4 m ρ) c).arrAt w cfg2.N
abbrev U6 : Dev nD → Valuation τ sig (Elt F) := fun c => StableHlo.after hostOps3 (U5 m ρ c)
abbrev V6 : (c : Dev nD) → (b : Ref sig .tc) → Buf (Elt F) ((c : Thread nD τ).loc b) := fun c b => U6 m ρ c b
def U7 (c : Dev nD) : Valuation τ sig (Elt F) :=
  Pipeline.withArrays spec3 c (U6 m ρ c) fun w => (dat3 (V6 m ρ) c).arrAt w cfg3.N
abbrev U8 : Dev nD → Valuation τ sig (Elt F) := fun c => StableHlo.after hostOps4 (U7 m ρ c)
abbrev V8 : (c : Dev nD) → (b : Ref sig .tc) → Buf (Elt F) ((c : Thread nD τ).loc b) := fun c b => U8 m ρ c b
def U9 (c : Dev nD) : Valuation τ sig (Elt F) :=
  Pipeline.withArrays spec4 c (U8 m ρ c) fun w => (dat4 (V8 m ρ) c).arrAt w cfg4.N

theorem U2_arr (c : Dev nD) (w : Fin cfg0.W) :
    U2 m ρ c (Proc.devRef .tc (Pipeline.arrRef spec0 w)) = (dat0 (V1 m ρ) c).arrAt w cfg0.N :=
  Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) :=
  Pipeline.withArrays_of_ne spec0 c _ _ b hb
theorem U3_arr (c : Dev nD) (w : Fin cfg1.W) :
    U3 m ρ c (Proc.devRef .tc (Pipeline.arrRef spec1 w)) = (dat1 (V2 m ρ) c).arrAt w cfg1.N :=
  Pipeline.withArrays_arr spec1 launch1.win.arr_inj c _ _ w
theorem U3_of_ne (c : Dev nD) (b : Ref sig .tc) (hb : ∀ w, Pipeline.arrRef spec1 w ≠ b) :
    U3 m ρ c (Proc.devRef .tc b) = U2 m ρ c (Proc.devRef .tc b) :=
  Pipeline.withArrays_of_ne spec1 c _ _ b hb
theorem U5_arr (c : Dev nD) (w : Fin cfg2.W) :
    U5 m ρ c (Proc.devRef .tc (Pipeline.arrRef spec2 w)) = (dat2 (V4 m ρ) c).arrAt w cfg2.N :=
  Pipeline.withArrays_arr spec2 launch2.win.arr_inj c _ _ w
theorem U5_of_ne (c : Dev nD) (b : Ref sig .tc) (hb : ∀ w, Pipeline.arrRef spec2 w ≠ b) :
    U5 m ρ c (Proc.devRef .tc b) = U4 m ρ c (Proc.devRef .tc b) :=
  Pipeline.withArrays_of_ne spec2 c _ _ b hb
theorem U7_arr (c : Dev nD) (w : Fin cfg3.W) :
    U7 m ρ c (Proc.devRef .tc (Pipeline.arrRef spec3 w)) = (dat3 (V6 m ρ) c).arrAt w cfg3.N :=
  Pipeline.withArrays_arr spec3 launch3.win.arr_inj c _ _ w
theorem U7_of_ne (c : Dev nD) (b : Ref sig .tc) (hb : ∀ w, Pipeline.arrRef spec3 w ≠ b) :
    U7 m ρ c (Proc.devRef .tc b) = U6 m ρ c (Proc.devRef .tc b) :=
  Pipeline.withArrays_of_ne spec3 c _ _ b hb
theorem U9_arr (c : Dev nD) (w : Fin cfg4.W) :
    U9 m ρ c (Proc.devRef .tc (Pipeline.arrRef spec4 w)) = (dat4 (V8 m ρ) c).arrAt w cfg4.N :=
  Pipeline.withArrays_arr spec4 launch4.win.arr_inj c _ _ w
theorem U9_of_ne (c : Dev nD) (b : Ref sig .tc) (hb : ∀ w, Pipeline.arrRef spec4 w ≠ b) :
    U9 m ρ c (Proc.devRef .tc b) = U8 m ρ c (Proc.devRef .tc b) :=
  Pipeline.withArrays_of_ne spec4 c _ _ b hb

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V8 m ρ) c
abbrev 𝒱₀ : Variants := Variants.none
abbrev L : GSem nD τ sig → Finset Unit := fun _ => ∅
abbrev lv : GSem nD τ sig → Unit → ℕ := fun _ _ => 0
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m ρ) () defs₀ 𝒱₀ L lv 0 :=
  Cert.Lib.regionOf _ _ _ _ _ L lv 0 launch0.win launch0.block_pos launch0.stage_whole launch0.arr_whole
    (fun c => (body_obligation0 (V1 m ρ) c).loose) (fun _ _ => rfl) (fun _ _ => rfl) (fun _ _ => rfl) rfl (U1 m ρ)
    (fun _ _ => rfl) (fun _ => .rfl) (fun _ => .rfl)

set_option backward.isDefEq.respectTransparency.types false in
def reg1 : Pipeline.RegionSeg (pcfgs (F := F)) adm (pdats m ρ) () defs₀ 𝒱₀ L lv 1 :=
  Cert.Lib.regionOf _ _ _ _ _ L lv 1 launch1.win launch1.block_pos launch1.stage_whole launch1.arr_whole
    (fun c => (body_obligation1 (V2 m ρ) c).loose) (fun _ _ => rfl) (fun _ _ => rfl) (fun _ _ => rfl) rfl (U2 m ρ)
    (fun _ _ => rfl) (fun _ => .rfl) (fun _ => .rfl)

set_option backward.isDefEq.respectTransparency.types false in
def reg2 : Pipeline.RegionSeg (pcfgs (F := F)) adm (pdats m ρ) () defs₀ 𝒱₀ L lv 2 :=
  Cert.Lib.regionOf _ _ _ _ _ L lv 2 launch2.win launch2.block_pos launch2.stage_whole launch2.arr_whole
    (fun c => (body_obligation2 (V4 m ρ) c).loose) (fun _ _ => rfl) (fun _ _ => rfl) (fun _ _ => rfl) rfl (U4 m ρ)
    (fun _ _ => rfl) (fun _ => .rfl) (fun _ => .rfl)

set_option backward.isDefEq.respectTransparency.types false in
def reg3 : Pipeline.RegionSeg (pcfgs (F := F)) adm (pdats m ρ) () defs₀ 𝒱₀ L lv 3 :=
  Cert.Lib.regionOf _ _ _ _ _ L lv 3 launch3.win launch3.block_pos launch3.stage_whole launch3.arr_whole
    (fun c => (body_obligation3 (V6 m ρ) c).loose) (fun _ _ => rfl) (fun _ _ => rfl) (fun _ _ => rfl) rfl (U6 m ρ)
    (fun _ _ => rfl) (hin3 (V6 m ρ)) (hout3 (V6 m ρ))

set_option backward.isDefEq.respectTransparency.types false in
def reg4 : Pipeline.RegionSeg (pcfgs (F := F)) adm (pdats m ρ) () defs₀ 𝒱₀ L lv 4 :=
  Cert.Lib.regionOf _ _ _ _ _ L lv 4 launch4.win launch4.block_pos launch4.stage_whole launch4.arr_whole
    (fun c => (body_obligation4 (V8 m ρ) c).loose) (fun _ _ => rfl) (fun _ _ => rfl) (fun _ _ => rfl) rfl (U8 m ρ)
    (fun _ _ => rfl) (fun _ => .rfl) (fun _ => .rfl)

abbrev segs : List (Pipeline.Seg (pcfgs (F := F)) adm (pdats m ρ) () defs₀ 𝒱₀ L lv) :=
  [ .host (Cert.Lib.hostOf _ _ _ hostOps0 hostOps0_sub (by simp only [List.Forall]; repeat' constructor) (U0 m ρ)),
    .region (reg0 m ρ),
    .region (reg1 m ρ),
    .host (Cert.Lib.hostOf _ _ _ hostOps2 hostOps2_sub (by simp only [List.Forall]; repeat' constructor) (U3 m ρ)),
    .region (reg2 m ρ),
    .host (Cert.Lib.hostOf _ _ _ hostOps3 hostOps3_sub (by simp only [List.Forall]; repeat' constructor) (U5 m ρ)),
    .region (reg3 m ρ),
    .host (Cert.Lib.hostOf _ _ _ hostOps4 hostOps4_sub (by simp only [List.Forall]; repeat' constructor) (U7 m ρ)),
    .region (reg4 m ρ) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = U9 m ρ c b) :=
  Cert.Lib.run_of (pcfgs (F := F)) adm (pdats m ρ) defs₀ 𝒱₀ cellOf_inj m ρ main (segs m ρ) (main_run m ρ)
    (by simp only [segs, Pipeline.Seg.pipes_host, Pipeline.Seg.pipes_region, Pipeline.Seg.pipes_nil]; decide) (U9 m ρ)
    ⟨fun _ => .rfl, fun _ => .rfl, fun _ => .rfl, fun _ => .rfl, fun _ => .rfl, fun _ => .rfl, fun _ => .rfl, fun _ => .rfl, fun _ => .rfl, fun _ => sep_assoc'⟩

end Cert.Kernel.Hand

end
-- ==== Proof.KWalkArgs.lean ====
import proofs.«150297_g64080912056811_cont_9to1c4b_125_48_alg».proof.Proof.KRun
import proofs.«150297_g64080912056811_cont_9to1c4b_125_48_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev hostW0 : List (Ref sig .tc) := hostOps0_W
abbrev hostW2 : List (Ref sig .tc) := hostOps2_W
abbrev hostW3 : List (Ref sig .tc) := hostOps3_W
abbrev hostW4 : List (Ref sig .tc) := hostOps4_W

theorem keeps_U1 (c : Dev nD) (r : Ref sig .tc) (h : r ∉ hostW0) :
    U1 m ρ c (Proc.devRef .tc r) = U0 m ρ c (Proc.devRef .tc r) :=
  StableHlo.after_of_writes_sub hostOps0 _ hostOps0_writes h
theorem keeps_U4 (c : Dev nD) (r : Ref sig .tc) (h : r ∉ hostW2) :
    U4 m ρ c (Proc.devRef .tc r) = U3 m ρ c (Proc.devRef .tc r) :=
  StableHlo.after_of_writes_sub hostOps2 _ hostOps2_writes h
theorem keeps_U6 (c : Dev nD) (r : Ref sig .tc) (h : r ∉ hostW3) :
    U6 m ρ c (Proc.devRef .tc r) = U5 m ρ c (Proc.devRef .tc r) :=
  StableHlo.after_of_writes_sub hostOps3 _ hostOps3_writes h
theorem keeps_U8 (c : Dev nD) (r : Ref sig .tc) (h : r ∉ hostW4) :
    U8 m ρ c (Proc.devRef .tc r) = U7 m ρ c (Proc.devRef .tc r) :=
  StableHlo.after_of_writes_sub hostOps4 _ hostOps4_writes h

theorem keeps_U2_in (c : Dev nD) (w : Fin cfg0.W) (hin : (cfg0.win w).isOut = false) :
    U2 m ρ c (Proc.devRef .tc (Pipeline.arrRef spec0 w)) = U1 m ρ c (Proc.devRef .tc (Pipeline.arrRef spec0 w)) :=
  (U2_arr m ρ c w).trans (((dat0 (V1 m ρ) c).arrAt_in w hin _).trans (A_eq0 (V1 m ρ) c w))
theorem keeps_U3_in (c : Dev nD) (w : Fin cfg1.W) (hin : (cfg1.win w).isOut = false) :
    U3 m ρ c (Proc.devRef .tc (Pipeline.arrRef spec1 w)) = U2 m ρ c (Proc.devRef .tc (Pipeline.arrRef spec1 w)) :=
  (U3_arr m ρ c w).trans (((dat1 (V2 m ρ) c).arrAt_in w hin _).trans (A_eq1 (V2 m ρ) c w))
theorem keeps_U5_in (c : Dev nD) (w : Fin cfg2.W) (hin : (cfg2.win w).isOut = false) :
    U5 m ρ c (Proc.devRef .tc (Pipeline.arrRef spec2 w)) = U4 m ρ c (Proc.devRef .tc (Pipeline.arrRef spec2 w)) :=
  (U5_arr m ρ c w).trans (((dat2 (V4 m ρ) c).arrAt_in w hin _).trans (A_eq2 (V4 m ρ) c w))
theorem keeps_U7_in (c : Dev nD) (w : Fin cfg3.W) (hin : (cfg3.win w).isOut = false) :
    U7 m ρ c (Proc.devRef .tc (Pipeline.arrRef spec3 w)) = U6 m ρ c (Proc.devRef .tc (Pipeline.arrRef spec3 w)) :=
  (U7_arr m ρ c w).trans (((dat3 (V6 m ρ) c).arrAt_in w hin _).trans (A_eq3 (V6 m ρ) c w))
theorem keeps_U9_in (c : Dev nD) (w : Fin cfg4.W) (hin : (cfg4.win w).isOut = false) :
    U9 m ρ c (Proc.devRef .tc (Pipeline.arrRef spec4 w)) = U8 m ρ c (Proc.devRef .tc (Pipeline.arrRef spec4 w)) :=
  (U9_arr m ρ c w).trans (((dat4 (V8 m ρ) c).arrAt_in w hin _).trans (A_eq4 (V8 m ρ) c w))

theorem walk_U9_of (c : Dev nD) (r : Ref sig .tc)
    (h : (r ∉ hostW0 ∧ r ∉ hostW2 ∧ r ∉ hostW3 ∧ r ∉ hostW4) ∧ (∀ w, Pipeline.arrRef spec0 w ≠ r) ∧ (∀ w, Pipeline.arrRef spec1 w ≠ r)
      ∧ (∀ w, Pipeline.arrRef spec2 w ≠ r) ∧ (∀ w, Pipeline.arrRef spec3 w ≠ r) ∧ ∀ w, Pipeline.arrRef spec4 w ≠ r) :
    U9 m ρ c (Proc.devRef .tc r) = m ((c : Thread nD τ).loc r) :=
  (U9_of_ne m ρ c r h.2.2.2.2.2).trans <| (keeps_U8 m ρ c r h.1.2.2.2).trans <| (U7_of_ne m ρ c r h.2.2.2.2.1).trans <|
    (keeps_U6 m ρ c r h.1.2.2.1).trans <| (U5_of_ne m ρ c r h.2.2.2.1).trans <| (keeps_U4 m ρ c r h.1.2.1).trans <|
    (U3_of_ne m ρ c r h.2.2.1).trans <| (U2_of_ne m ρ c r h.2.1).trans <| (keeps_U1 m ρ c r h.1.1).trans rfl

theorem walk_U9_arg0 (c : Dev nD) : U9 m ρ c (Proc.devRef .tc main_arg0) = m ((c : Thread nD τ).loc main_arg0) :=
  (keeps_U9_in m ρ c 1 rfl).trans <| (keeps_U8 m ρ c main_arg0 (by decide)).trans <| (keeps_U7_in m ρ c 1 rfl).trans <|
    (keeps_U6 m ρ c main_arg0 (by decide)).trans <| (U5_of_ne m ρ c main_arg0 (by decide)).trans <|
    (keeps_U4 m ρ c main_arg0 (by decide)).trans <| (U3_of_ne m ρ c main_arg0 (by decide)).trans <|
    (keeps_U2_in m ρ c 0 rfl).trans <| (keeps_U1 m ρ c main_arg0 (by decide)).trans rfl
theorem walk_U9_arg1 (c : Dev nD) : U9 m ρ c (Proc.devRef .tc main_arg1) = m ((c : Thread nD τ).loc main_arg1) :=
  walk_U9_of m ρ c main_arg1 (by decide)

theorem walk_U9_arg2 (c : Dev nD) : U9 m ρ c (Proc.devRef .tc main_arg2) = m ((c : Thread nD τ).loc main_arg2) :=
  (U9_of_ne m ρ c main_arg2 (by decide)).trans <| (keeps_U8 m ρ c main_arg2 (by decide)).trans <|
    (U7_of_ne m ρ c main_arg2 (by decide)).trans <| (keeps_U6 m ρ c main_arg2 (by decide)).trans <|
    (U5_of_ne m ρ c main_arg2 (by decide)).trans <| (keeps_U4 m ρ c main_arg2 (by decide)).trans <|
    (keeps_U3_in m ρ c 0 rfl).trans <| (U2_of_ne m ρ c main_arg2 (by decide)).trans <|
    (keeps_U1 m ρ c main_arg2 (by decide)).trans rfl
theorem walk_U9_arg3 (c : Dev nD) : U9 m ρ c (Proc.devRef .tc main_arg3) = m ((c : Thread nD τ).loc main_arg3) :=
  walk_U9_of m ρ c main_arg3 (by decide)
theorem walk_U9_arg4 (c : Dev nD) : U9 m ρ c (Proc.devRef .tc main_arg4) = m ((c : Thread nD τ).loc main_arg4) :=
  walk_U9_of m ρ c main_arg4 (by decide)
theorem walk_U9_arg5 (c : Dev nD) : U9 m ρ c (Proc.devRef .tc main_arg5) = m ((c : Thread nD τ).loc main_arg5) :=
  walk_U9_of m ρ c main_arg5 (by decide)
theorem walk_U9_arg6 (c : Dev nD) : U9 m ρ c (Proc.devRef .tc main_arg6) = m ((c : Thread nD τ).loc main_arg6) :=
  walk_U9_of m ρ c main_arg6 (by decide)
theorem walk_U9_arg7 (c : Dev nD) : U9 m ρ c (Proc.devRef .tc main_arg7) = m ((c : Thread nD τ).loc main_arg7) :=
  walk_U9_of m ρ c main_arg7 (by decide)
theorem walk_U9_arg8 (c : Dev nD) : U9 m ρ c (Proc.devRef .tc main_arg8) = m ((c : Thread nD τ).loc main_arg8) :=
  walk_U9_of m ρ c main_arg8 (by decide)

-- A final memory that holds the last item's contents holds every argument as launched.
theorem kept (c : Dev nD) {s : MemSt nD τ sig (Elt F)}
    (h : ∀ b ∈ Pipeline.ucRefs τ sig, s.mem ((c : Thread nD τ).1, b) = U9 m ρ c b) :
    ∀ r ∈ ([main_arg0, main_arg1, main_arg2, main_arg3, main_arg4, main_arg5, main_arg6, main_arg7, main_arg8] : List (Ref sig .tc)),
      s.mem ((c.tc : Thread nD τ).loc r) = m ((c.tc : Thread nD τ).loc r) := by
  simp only [List.forall_mem_cons, List.not_mem_nil, false_imp_iff, implies_true, and_true]
  exact ⟨(h _ (mem_uc main_arg0 (by decide))).trans (walk_U9_arg0 m ρ c), (h _ (mem_uc main_arg1 (by decide))).trans (walk_U9_arg1 m ρ c),
    (h _ (mem_uc main_arg2 (by decide))).trans (walk_U9_arg2 m ρ c), (h _ (mem_uc main_arg3 (by decide))).trans (walk_U9_arg3 m ρ c),
    (h _ (mem_uc main_arg4 (by decide))).trans (walk_U9_arg4 m ρ c), (h _ (mem_uc main_arg5 (by decide))).trans (walk_U9_arg5 m ρ c),
    (h _ (mem_uc main_arg6 (by decide))).trans (walk_U9_arg6 m ρ c), (h _ (mem_uc main_arg7 (by decide))).trans (walk_U9_arg7 m ρ c),
    (h _ (mem_uc main_arg8 (by decide))).trans (walk_U9_arg8 m ρ c)⟩

end Cert.Kernel.Hand

end
-- ==== Proof.KIReg0.lean ====
import proofs.«150297_g64080912056811_cont_9to1c4b_125_48_alg».proof.Proof.Gen.KernelIdeal.Launch
import proofs.«150297_g64080912056811_cont_9to1c4b_125_48_alg».proof.Proof.Gen.KernelIdeal.Skeleton
import proofs.«150297_g64080912056811_cont_9to1c4b_125_48_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2000x256 := Rect.unit (s := S2000x256) ![0, 0] S2000x256.size inb_S2000x256_S2000x256_0_0
abbrev r0_w : Rect S256x512 := Rect.unit (s := S256x512) ![0, 0] S256x512.size inb_S256x512_S256x512_0_0
abbrev r0_b : Rect S1x512 := Rect.unit (s := S1x512) ![0, 0] S1x512.size inb_S1x512_S1x512_0_0
abbrev r0_out : Rect S2000x512 := Rect.unit (s := S2000x512) ![0, 0] S2000x512.size inb_S2000x512_S2000x512_0_0

def out0_4 (x0 : Vec F S2000x256 .f32) (x1 : Vec F S256x512 .f32) (x3 : Vec F S1x512 .f32) : Vec F S2000x512 .f32 :=
  View.canon [⟨r0_out, k0_pay1 (View.ld x0 r0_x) (View.ld x1 r0_w) (View.ld x3 r0_b)⟩]

def out0_5 (x0 : Vec F S2000x256 .f32) (x2 : Vec F S256x512 .f32) : Vec F S2000x512 .f32 :=
  View.canon [⟨r0_out, k0_pay2 (View.ld x0 r0_x) (View.ld x2 r0_w)⟩]

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 3 t)
    | ⟨5, _⟩ => out0_5 (iblk0 V c 0 t) (iblk0 V c 2 t)
  Φ _ := Pipeline.ΦA spec0 c
  q _ := fullShare
  owed _ := 0

theorem A_eq0 (w : Fin cfg0.W) : (dat0 V c).A w = V c (Pipeline.arrRef spec0 w) := by
  dsimp only [dat0]

variable (t : Fin cfg0.N)

theorem after0_4 : (dat0 V c).after 4 t = out0_4 (iblk0 V c 0 t) (iblk0 V c 1 t) (iblk0 V c 3 t) := by dsimp only [dat0]
theorem after0_5 : (dat0 V c).after 5 t = out0_5 (iblk0 V c 0 t) (iblk0 V c 2 t) := by dsimp only [dat0]

theorem before0_0 (d) : (dat0 V c).before 0 t d = iblk0 V c 0 t :=
  (dat0 V c).before_in_eq_fetched 0 rfl (fun _ => rfl) (fun _ _ _ => rfl) (fun _ => rfl) t d
theorem before0_1 (d) : (dat0 V c).before 1 t d = iblk0 V c 1 t :=
  (dat0 V c).before_in_eq_fetched 1 rfl (fun _ => rfl) (fun _ _ _ => rfl) (fun _ => rfl) t d
theorem before0_2 (d) : (dat0 V c).before 2 t d = iblk0 V c 2 t :=
  (dat0 V c).before_in_eq_fetched 2 rfl (fun _ => rfl) (fun _ _ _ => rfl) (fun _ => rfl) t d
theorem before0_3 (d) : (dat0 V c).before 3 t d = iblk0 V c 3 t :=
  (dat0 V c).before_in_eq_fetched 3 rfl (fun _ => rfl) (fun _ _ _ => rfl) (fun _ => rfl) t d

theorem body_obligation0 : BodyObligation (dat0 (F := F) V c) (defs₀ (F := F)) Variants.none () Set.univ := fun t => by
  rw [bigSep_W0, bigSep_W0]
  simp only [before0_0, before0_1, before0_2, before0_3]
  dsimp only [dat0]
  show _ ⊢ wp _ _ _ (bodyAt0 t) _
  unfold bodyAt0
  simp only [cc0__proj_node_body_eq_skeleton]
  unfold cc0__proj_node_body_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  rw [← hf0, ← hf1, ← hf2, ← hf3]
  sl_exec
  sl_step
  iframe HΦ
  isplitl [Ho]; · iexact Ho
  isplitl [H0]
  · iexists f0; iframe; ipureintro; rfl
  isplitl [H1]
  · iexists f1; iframe; ipureintro; rfl
  isplitl [H2]
  · iexists f2; iframe; ipureintro; rfl
  isplitl [H3]
  · iexists f3; iframe; ipureintro; rfl
  isplitl [H4]
  · iexists _; iframe; ipureintro
    exact View.read_writes_eq_canon _ _ _ (View.cover_of_tiled _ S2000x512.size (by rfl))
  iexists _; iframe; ipureintro
  exact View.read_writes_eq_canon _ _ _ (View.cover_of_tiled _ S2000x512.size (by rfl))

end Cert.KernelIdeal.Hand

end
-- ==== Proof.KIReg1.lean ====
import proofs.«150297_g64080912056811_cont_9to1c4b_125_48_alg».proof.Proof.Gen.KernelIdeal.Launch
import proofs.«150297_g64080912056811_cont_9to1c4b_125_48_alg».proof.Proof.Gen.KernelIdeal.Skeleton
import proofs.«150297_g64080912056811_cont_9to1c4b_125_48_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_in0 : Rect S2000x16 := Rect.unit (s := S2000x16) ![0, 0] S2000x16.size inb_S2000x16_S2000x16_0_0
abbrev r1_in1 : Rect S16x512 := Rect.unit (s := S16x512) ![0, 0] S16x512.size inb_S16x512_S16x512_0_0
abbrev r1_out : Rect S2000x512 := Rect.unit (s := S2000x512) ![0, 0] S2000x512.size inb_S2000x512_S2000x512_0_0

def out1_2 (x0 : Vec F S2000x16 .f32) (x1 : Vec F S16x512 .f32) : Vec F S2000x512 .f32 :=
  View.canon [⟨r1_out, k1_pay1 (View.ld x0 r1_in0) (View.ld x1 r1_in1)⟩]

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (w : Fin cfg1.W) : (dat1 V c).A w = V c (Pipeline.arrRef spec1 w) := by
  dsimp only [dat1]

variable (t : Fin cfg1.N)

theorem after1_2 : (dat1 V c).after 2 t = out1_2 (iblk1 V c 0 t) (iblk1 V c 1 t) := by dsimp only [dat1]

theorem before1_0 (d) : (dat1 V c).before 0 t d = iblk1 V c 0 t :=
  (dat1 V c).before_in_eq_fetched 0 rfl (fun _ => rfl) (fun _ _ _ => rfl) (fun _ => rfl) t d
theorem before1_1 (d) : (dat1 V c).before 1 t d = iblk1 V c 1 t :=
  (dat1 V c).before_in_eq_fetched 1 rfl (fun _ => rfl) (fun _ _ _ => rfl) (fun _ => rfl) t d

theorem body_obligation1 : BodyObligation (dat1 (F := F) V c) (defs₀ (F := F)) Variants.none () Set.univ := fun t => by
  rw [bigSep_W1, bigSep_W1]
  simp only [before1_0, before1_1]
  dsimp only [dat1]
  show _ ⊢ wp _ _ _ (bodyAt1 t) _
  unfold bodyAt1
  simp only [cc1__proj_edge_body_eq_skeleton]
  unfold cc1__proj_edge_body_skel owns
  iintro ⟨HΦ, Ho, ⟨%d0, %f0, %hf0, H0⟩, ⟨%d1, %f1, %hf1, H1⟩, ⟨%d2, %f2, -, H2⟩⟩
  rw [← hf0, ← hf1]
  sl_exec
  sl_step
  iframe HΦ
  isplitl [Ho]; · iexact Ho
  isplitl [H0]
  · iexists f0; iframe; ipureintro; rfl
  isplitl [H1]
  · iexists f1; iframe; ipureintro; rfl
  iexists _; iframe; ipureintro
  exact View.read_writes_eq_canon _ _ _ (View.cover_of_tiled _ S2000x512.size (by rfl))

end Cert.KernelIdeal.Hand

end
-- ==== Proof.KIReg2.lean ====
import proofs.«150297_g64080912056811_cont_9to1c4b_125_48_alg».proof.Proof.Gen.KernelIdeal.Launch
import proofs.«150297_g64080912056811_cont_9to1c4b_125_48_alg».proof.Proof.Gen.KernelIdeal.Skeleton
import proofs.«150297_g64080912056811_cont_9to1c4b_125_48_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_in : Rect S2000x512 := Rect.unit (s := S2000x512) ![0, 0] S2000x512.size inb_S2000x512_S2000x512_0_0
abbrev r2_out : Rect S2000x256 := Rect.unit (s := S2000x256) ![0, 0] S2000x256.size inb_S2000x256_S2000x256_0_0

def out2_1 (x0 : Vec F S2000x512 .f32) : Vec F S2000x256 .f32 :=
  View.canon [⟨r2_out, k2_pay1 (View.ld x0 r2_in)⟩]

def dat2 : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (w : Fin cfg2.W) : (dat2 V c).A w = V c (Pipeline.arrRef spec2 w) := by
  dsimp only [dat2]

variable (t : Fin cfg2.N)

theorem after2_1 : (dat2 V c).after 1 t = out2_1 (iblk2 V c 0 t) := by dsimp only [dat2]

theorem before2_0 (d) : (dat2 V c).before 0 t d = iblk2 V c 0 t :=
  (dat2 V c).before_in_eq_fetched 0 rfl (fun _ => rfl) (fun _ _ _ => rfl) (fun _ => rfl) t d

theorem body_obligation2 : BodyObligation (dat2 (F := F) V c) (defs₀ (F := F)) Variants.none () Set.univ := fun t => by
  rw [bigSep_W2, bigSep_W2]
  simp only [before2_0]
  dsimp only [dat2]
  show _ ⊢ wp _ _ _ (bodyAt2 t) _
  unfold bodyAt2
  simp only [cc2__edge_act_body_eq_skeleton]
  unfold cc2__edge_act_body_skel owns
  iintro ⟨HΦ, Ho, ⟨%d0, %f0, %hf0, H0⟩, ⟨%d1, %f1, -, H1⟩⟩
  rw [← hf0]
  sl_exec
  sl_step
  iframe HΦ
  isplitl [Ho]; · iexact Ho
  isplitl [H0]
  · iexists f0; iframe; ipureintro; rfl
  iexists _; iframe; ipureintro
  exact View.read_writes_eq_canon _ _ _ (View.cover_of_tiled _ S2000x256.size (by rfl))

end Cert.KernelIdeal.Hand

end
-- ==== Proof.KIReg3.lean ====
import proofs.«150297_g64080912056811_cont_9to1c4b_125_48_alg».proof.Proof.Gen.KernelIdeal.Launch
import proofs.«150297_g64080912056811_cont_9to1c4b_125_48_alg».proof.Proof.Gen.KernelIdeal.Skeleton
import proofs.«150297_g64080912056811_cont_9to1c4b_125_48_alg».proof.Proof.Gen.KernelIdeal.Points
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_acc : Rect S2x256 := Rect.unit (s := S2x256) ![0, 0] S2x256.size inb_S2x256_S2x256_0_0

theorem offs3_zero : (![0, 0] : Fin 2 → Nat) = fun _ => 0 := funext fun a => by fin_cases a <;> rfl

-- writing the whole two-row array and reading it back gives what was written
theorem wr3_acc (m : Memref sig .tc .vmem S2x256 .f32) (f : m.view.ty.Contents (Elt F)) (w : Vec F S2x256 .f32) :
    m.view.read (Elt F) (m.view.writes (Elt F) f [⟨r3_acc, w⟩]) = w :=
  (View.read_writes_eq_canon _ _ _ fun y => ⟨⟨r3_acc, w⟩, List.mem_singleton_self _, View.mem_set_unit_zero offs3_zero inb_S2x256_S2x256_0_0 y⟩).trans
    (View.canon_unit_zero (Val := Elt F) offs3_zero _ w)

abbrev cond3_0 (i : grid3.Coords) : Prop := (Scalar.cmpi .ne (Scalar.extui (Scalar.cmpi .eq (BitVec.ofNat 32 (i 0).val) 0#32)) 0#32) = 1#1
abbrev cond3_1 (i : grid3.Coords) : Prop := (Scalar.cmpi .ne (Scalar.extui (Scalar.cmpi .sgt (BitVec.ofNat 32 (i 0).val) 0#32)) 0#32) = 1#1
abbrev cond3_2 (i : grid3.Coords) : Prop := k3_cond3 i = 1#1

-- the three kinds of point (first, middle, last) and the body's conditions at each
theorem cases3 : ∀ t : Fin cfg3.N, (t.val = 0 ∧ cond3_0 (grid3.coords t) ∧ ¬cond3_1 (grid3.coords t) ∧ ¬cond3_2 (grid3.coords t))
    ∨ (t.val ≠ 0 ∧ ¬cond3_0 (grid3.coords t) ∧ cond3_1 (grid3.coords t) ∧ ¬cond3_2 (grid3.coords t))
    ∨ (t.val ≠ 0 ∧ ¬cond3_0 (grid3.coords t) ∧ cond3_1 (grid3.coords t) ∧ cond3_2 (grid3.coords t)) :=
  (by decide +kernel : ∀ t : Fin grid3.N, _)

theorem out3 : ∀ t : Fin cfg3.N, (cond3_2 (grid3.coords t) ∧ cfg3.idle 2 (grid3.coords t) = false)
    ∨ (¬cond3_2 (grid3.coords t) ∧ cfg3.idle 2 (grid3.coords t) = true ∧ (cfg3.win 2).flush t = false) := by decide +kernel

-- the accumulator after point t: the two blocks' sums at the first point, added to the accumulator s after it
def new3 (t : Fin cfg3.N) (x0 x1 : Vec F S2000x256 .f32) (s : Vec F S2x256 .f32) : Vec F S2x256 .f32 :=
  if t.val = 0 then k3_pay2 x0 x1 else k3_pay3 x0 x1 s

-- the body's run at any point: the accumulator goes from s to new3, and the output takes it at the last point only
theorem sound_kernel3 (c : Dev nD) (t : Fin cfg3.N) (E : Set ℕ)
    (arg1 arg2 : Memref sig .tc .vmem S2000x256 .f32) (harg1 : arg1.IsWhole) (harg2 : arg2.IsWhole)
    (arg3 arg4 : Memref sig .tc .vmem S2x256 .f32) (harg3 : arg3.IsWhole) (harg4 : arg4.IsWhole)
    (x0 x1 : Vec F S2000x256 .f32) (xo s : Vec F S2x256 .f32) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare s
        ∗ (iprop(owns (c : Thread nD τ) arg1 fullShare x0 ∗ owns (c : Thread nD τ) arg2 fullShare x1
            ∗ owns (c : Thread nD τ) arg3 fullShare (if cond3_2 (grid3.coords t) then new3 t x0 x1 s else xo)
            ∗ owns (c : Thread nD τ) arg4 fullShare (new3 t x0 x1 s)) -∗ K ⟨⟩))
      ⊢ wp frame (wpE (defs₀ (F := F)) Variants.none c none) E (cc3__stats_body (grid3.coords t) arg1 harg1 arg2 harg2 arg3 harg3 arg4 harg4) K := by
  simp only [cc3__stats_body_eq_skeleton]; unfold cc3__stats_body_skel owns new3
  rcases cases3 t with ⟨hz, hc0, hc1, hc2⟩ | ⟨hz, hc0, hc1, hc2⟩ | ⟨hz, hc0, hc1, hc2⟩ <;>
  ( first | rw [if_pos hz] | rw [if_neg hz]
    first | rw [if_pos hc2] | rw [if_neg hc2]
    iintro ⟨⟨%f0, %hf0, H0⟩, ⟨%f1, %hf1, H1⟩, ⟨%f2, %hf2, H2⟩, ⟨%f3, %hf3, H3⟩, Hk⟩
    subst hf0; subst hf1; subst hf2; subst hf3
    sl_exec (disch := first | exact hc0 | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
      | rfl
      | ( refine (wr3_acc _ _ _).trans ?_
          sl_unfold_run_names
          refine (View.readCov_unit_zero (Val := Elt F) _ offs3_zero _ _).trans ?_
          congr 1 <;> exact View.ld_unit_zero (Val := Elt F) offs3_zero _ _)
    iexists _; isplitr
    swap; · iexact H3
    ipureintro
    refine (wr3_acc _ _ _).trans ?_
    congr 1 <;> exact View.ld_unit_zero (Val := Elt F) offs3_zero _ _)

def accAt3 (c : Dev nD) : (n : ℕ) → n < cfg3.N → Vec F S2x256 .f32
  | 0, hn => k3_pay2 (iblk3 V c 0 ⟨0, hn⟩) (iblk3 V c 1 ⟨0, hn⟩)
  | n + 1, hn => k3_pay3 (iblk3 V c 0 ⟨n + 1, hn⟩) (iblk3 V c 1 ⟨n + 1, hn⟩) (accAt3 c n (Nat.lt_of_succ_lt hn))

-- one step of the accumulation, given the previous point's value (nothing asked at the first point)
theorem accAt3_step (c : Dev nD) (t : Fin cfg3.N) (s : Vec F S2x256 .f32) (hs : ∀ m (h : t.val = m + 1), s = accAt3 V c m (by omega)) :
    new3 t (iblk3 V c 0 t) (iblk3 V c 1 t) s = accAt3 V c t.val t.isLt := by
  obtain ⟨n, hn⟩ := t
  unfold new3
  cases n with
  | zero => rfl
  | succ n => rw [if_neg (Nat.succ_ne_zero n), hs n rfl]; rfl

theorem PhiA3_eq (c : Dev nD) :
    (Pipeline.ΦA spec3 c : sProp 𝕄)
      = iprop(iprop((∃ d, owns (c : Thread nD τ) (Memref.whole cc3_scratch0) fullShare d) ∗ Pipeline.scopedRestBut spec3 c [cc3_scratch0]) ∗ (∃ r, prngReg c r)) := by
  unfold Pipeline.ΦA; rw [scopedRest3_split]; simp only [owns_whole]; try rfl

-- between points the accumulator is what the point before left (anything before the first)
def PhiS3 (c : Dev nD) (p : Fin (cfg3.N + 1)) : sProp 𝕄 :=
  iprop(iprop((∃ s, ⌜∀ m (h : p.val = m + 1), s = accAt3 V c m (by omega)⌝ ∗ owns (c : Thread nD τ) (Memref.whole cc3_scratch0) fullShare s)
    ∗ Pipeline.scopedRestBut spec3 c [cc3_scratch0]) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAt3 V c t.val t.isLt
  Φ := PhiS3 V c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accAt3 V c t.val t.isLt := by dsimp only [dat3]

theorem before3_0 (c : Dev nD) (t : Fin cfg3.N) (d) : (dat3 V c).before 0 t d = iblk3 V c 0 t :=
  (dat3 V c).before_fetched 0 t (fetch3_0 t) d
theorem before3_1 (c : Dev nD) (t : Fin cfg3.N) (d) : (dat3 V c).before 1 t d = iblk3 V c 1 t :=
  (dat3 V c).before_fetched 1 t (fetch3_1 t) d

-- the output: the accumulator at the last point, unchanged at the others
theorem leaves3_2 (c : Dev nD) (t : Fin cfg3.N) (d) :
    owns (c : Thread nD τ) (st3_2 t) fullShare (if cond3_2 (grid3.coords t) then accAt3 V c t.val t.isLt else (dat3 V c).before 2 t d)
      ⊢ (dat3 V c).leavesExact 2 t := by
  rcases out3 t with ⟨h, hi⟩ | ⟨h, hi, hf⟩
  · rw [if_pos h]; unfold Dat.leavesExact; rw [hi, after3_2]
  · rw [if_neg h, Dat.leavesExact_idle _ 2 t hi hf]
    iintro H; iexists d; iexact H

-- the body's obligation at every point, from the run above and the accumulation step
theorem body_obligation3 (c : Dev nD) : BodyObligation (dat3 (F := F) V c) (defs₀ (F := F)) Variants.none () Set.univ := fun t => by
  rw [bigSep_W3, bigSep_W3]
  show _ ⊢ wp frame _ Set.univ (bodyAt3 t) _
  unfold bodyAt3
  simp only [before3_0, before3_1, after3_0, after3_1, show (dat3 V c).Φ = PhiS3 V c from rfl, PhiS3, Fin.coe_castSucc, Fin.val_succ]
  iintro ⟨⟨⟨⟨%s, %hs, HS⟩, HR⟩, Hg⟩, Ho, ⟨%d0, H0⟩, ⟨%d1, H1⟩, ⟨%d2, H2⟩⟩
  iapply (sound_kernel3 c t Set.univ _ _ _ _ _ _ _ _ (iblk3 V c 0 t) (iblk3 V c 1 t) ((dat3 V c).before 2 t d2) s _)
  rw [accAt3_step V c t s hs]
  iframe H0 H1 H2 HS
  iintro ⟨H0, H1, H2, HS⟩
  iframe HR Hg H0 H1
  isplitl [HS]
  · iexists _; isplitr; swap; · iexact HS
    ipureintro; intro m h; obtain rfl := Nat.succ.inj h; rfl
  isplitl [Ho]; · iexact Ho
  iapply (leaves3_2 V c t d2); iexact H2

theorem hin3 (c : Dev nD) : Pipeline.ΦA spec3 c ⊢ (dat3 V c).Φ 0 := by
  rw [PhiA3_eq]; dsimp only [dat3, PhiS3]
  iintro ⟨⟨⟨%d, HS⟩, HR⟩, Hg⟩
  iframe HR Hg
  iexists d; isplitr; · ipureintro; exact fun m h => absurd h (Nat.succ_ne_zero m).symm
  iexact HS

theorem hout3 (c : Dev nD) : (dat3 V c).Φ (Fin.last cfg3.N) ⊢ Pipeline.ΦA spec3 c := by
  rw [PhiA3_eq]; dsimp only [dat3, PhiS3]
  iintro ⟨⟨⟨%s, -, HS⟩, HR⟩, Hg⟩
  iframe HR Hg
  iexists s; iexact HS

end Cert.KernelIdeal.Hand

end
-- ==== Proof.KIReg4.lean ====
import proofs.«150297_g64080912056811_cont_9to1c4b_125_48_alg».proof.Proof.Gen.KernelIdeal.Launch
import proofs.«150297_g64080912056811_cont_9to1c4b_125_48_alg».proof.Proof.Gen.KernelIdeal.Skeleton
import proofs.«150297_g64080912056811_cont_9to1c4b_125_48_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_blk : Rect S2000x256 := Rect.unit (s := S2000x256) ![0, 0] S2000x256.size inb_S2000x256_S2000x256_0_0
abbrev r4_row0 : Rect S2x256 := Rect.unit (s := S2x256) ![0, 0] S1x256.size inb_S2x256_S1x256_0_0
abbrev r4_row1 : Rect S2x256 := Rect.unit (s := S2x256) ![1, 0] S1x256.size inb_S2x256_S1x256_1_0
abbrev r4_vec : Rect S1x256 := Rect.unit (s := S1x256) ![0, 0] S1x256.size inb_S1x256_S1x256_0_0

def out4_5 (x0 x1 : Vec F S2000x256 .f32) (x2 : Vec F S2x256 .f32) (x3 x4 : Vec F S1x256 .f32) : Vec F S2000x256 .f32 :=
  View.canon [⟨r4_blk, k4_pay1 (View.ld x1 r4_blk) (View.ld x0 r4_blk) (View.ld x2 r4_row0) (View.ld x2 r4_row1) (View.ld x3 r4_vec) (View.ld x4 r4_vec)⟩]

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (w : Fin cfg4.W) : (dat4 V c).A w = V c (Pipeline.arrRef spec4 w) := by
  dsimp only [dat4]

variable (t : Fin cfg4.N)

theorem after4_5 :
    (dat4 V c).after 5 t = out4_5 (iblk4 V c 0 t) (iblk4 V c 1 t) (iblk4 V c 2 t) (iblk4 V c 3 t) (iblk4 V c 4 t) := by dsimp only [dat4]

theorem before4_0 (d) : (dat4 V c).before 0 t d = iblk4 V c 0 t :=
  (dat4 V c).before_in_eq_fetched 0 rfl (fun _ => rfl) (fun _ _ _ => rfl) (fun _ => rfl) t d
theorem before4_1 (d) : (dat4 V c).before 1 t d = iblk4 V c 1 t :=
  (dat4 V c).before_in_eq_fetched 1 rfl (fun _ => rfl) (fun _ _ _ => rfl) (fun _ => rfl) t d
theorem before4_2 (d) : (dat4 V c).before 2 t d = iblk4 V c 2 t :=
  (dat4 V c).before_in_eq_fetched 2 rfl (fun _ => rfl) (fun _ _ _ => rfl) (fun _ => rfl) t d
theorem before4_3 (d) : (dat4 V c).before 3 t d = iblk4 V c 3 t :=
  (dat4 V c).before_in_eq_fetched 3 rfl (fun _ => rfl) (fun _ _ _ => rfl) (fun _ => rfl) t d
theorem before4_4 (d) : (dat4 V c).before 4 t d = iblk4 V c 4 t :=
  (dat4 V c).before_in_eq_fetched 4 rfl (fun _ => rfl) (fun _ _ _ => rfl) (fun _ => rfl) t d

theorem body_obligation4 : BodyObligation (dat4 (F := F) V c) (defs₀ (F := F)) Variants.none () Set.univ := fun t => by
  rw [bigSep_W4, bigSep_W4]
  simp only [before4_0, before4_1, before4_2, before4_3, before4_4]
  dsimp only [dat4]
  show _ ⊢ wp _ _ _ (bodyAt4 t) _
  unfold bodyAt4
  simp only [cc4__final_body_eq_skeleton]
  unfold cc4__final_body_skel owns
  simp only [k4_part1_eq_skeleton]; unfold k4_part1_skel
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [← hf0, ← hf1, ← hf2, ← hf3, ← hf4]
  sl_exec
  sl_step
  iframe HΦ
  isplitl [Ho]; · iexact Ho
  isplitl [H0]
  · iexists f0; iframe; ipureintro; rfl
  isplitl [H1]
  · iexists f1; iframe; ipureintro; rfl
  isplitl [H2]
  · iexists f2; iframe; ipureintro; rfl
  isplitl [H3]
  · iexists f3; iframe; ipureintro; rfl
  isplitl [H4]
  · iexists f4; iframe; ipureintro; rfl
  iexists _; iframe; ipureintro
  exact View.read_writes_eq_canon _ _ _ (View.cover_of_tiled _ S2000x256.size (by rfl))

end Cert.KernelIdeal.Hand

end
-- ==== Proof.KIRun.lean ====
import proofs.«150297_g64080912056811_cont_9to1c4b_125_48_alg».proof.Proof.KIReg0
import proofs.«150297_g64080912056811_cont_9to1c4b_125_48_alg».proof.Proof.KIReg1
import proofs.«150297_g64080912056811_cont_9to1c4b_125_48_alg».proof.Proof.KIReg2
import proofs.«150297_g64080912056811_cont_9to1c4b_125_48_alg».proof.Proof.KIReg3
import proofs.«150297_g64080912056811_cont_9to1c4b_125_48_alg».proof.Proof.KIReg4
import proofs.«150297_g64080912056811_cont_9to1c4b_125_48_alg».proof.Proof.LibRegionSeg

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- The buffers between the nine items: a host stretch applies its operations, a region changes its arrays only.
abbrev U0 : Dev nD → Valuation τ sig (Elt F) := fun c b => (s₀ m ρ).mem ((c : Dev nD), b)
abbrev U1 : Dev nD → Valuation τ sig (Elt F) := fun c => StableHlo.after hostOps0 (U0 m ρ c)
abbrev V1 : (c : Dev nD) → (b : Ref sig .tc) → Buf (Elt F) ((c : Thread nD τ).loc b) := fun c b => U1 m ρ c b
def U2 (c : Dev nD) : Valuation τ sig (Elt F) :=
  Pipeline.withArrays spec0 c (U1 m ρ c) fun w => (dat0 (V1 m ρ) c).arrAt w cfg0.N
abbrev V2 : (c : Dev nD) → (b : Ref sig .tc) → Buf (Elt F) ((c : Thread nD τ).loc b) := fun c b => U2 m ρ c b
def U3 (c : Dev nD) : Valuation τ sig (Elt F) :=
  Pipeline.withArrays spec1 c (U2 m ρ c) fun w => (dat1 (V2 m ρ) c).arrAt w cfg1.N
abbrev U4 : Dev nD → Valuation τ sig (Elt F) := fun c => StableHlo.after hostOps2 (U3 m ρ c)
abbrev V4 : (c : Dev nD) → (b : Ref sig .tc) → Buf (Elt F) ((c : Thread nD τ).loc b) := fun c b => U4 m ρ c b
def U5 (c : Dev nD) : Valuation τ sig (Elt F) :=
  Pipeline.withArrays spec2 c (U4 m ρ c) fun w => (dat2 (V4 m ρ) c).arrAt w cfg2.N
abbrev U6 : Dev nD → Valuation τ sig (Elt F) := fun c => StableHlo.after hostOps3 (U5 m ρ c)
abbrev V6 : (c : Dev nD) → (b : Ref sig .tc) → Buf (Elt F) ((c : Thread nD τ).loc b) := fun c b => U6 m ρ c b
def U7 (c : Dev nD) : Valuation τ sig (Elt F) :=
  Pipeline.withArrays spec3 c (U6 m ρ c) fun w => (dat3 (V6 m ρ) c).arrAt w cfg3.N
abbrev U8 : Dev nD → Valuation τ sig (Elt F) := fun c => StableHlo.after hostOps4 (U7 m ρ c)
abbrev V8 : (c : Dev nD) → (b : Ref sig .tc) → Buf (Elt F) ((c : Thread nD τ).loc b) := fun c b => U8 m ρ c b
def U9 (c : Dev nD) : Valuation τ sig (Elt F) :=
  Pipeline.withArrays spec4 c (U8 m ρ c) fun w => (dat4 (V8 m ρ) c).arrAt w cfg4.N

theorem U2_arr (c : Dev nD) (w : Fin cfg0.W) :
    U2 m ρ c (Proc.devRef .tc (Pipeline.arrRef spec0 w)) = (dat0 (V1 m ρ) c).arrAt w cfg0.N :=
  Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) :=
  Pipeline.withArrays_of_ne spec0 c _ _ b hb
theorem U3_arr (c : Dev nD) (w : Fin cfg1.W) :
    U3 m ρ c (Proc.devRef .tc (Pipeline.arrRef spec1 w)) = (dat1 (V2 m ρ) c).arrAt w cfg1.N :=
  Pipeline.withArrays_arr spec1 launch1.win.arr_inj c _ _ w
theorem U3_of_ne (c : Dev nD) (b : Ref sig .tc) (hb : ∀ w, Pipeline.arrRef spec1 w ≠ b) :
    U3 m ρ c (Proc.devRef .tc b) = U2 m ρ c (Proc.devRef .tc b) :=
  Pipeline.withArrays_of_ne spec1 c _ _ b hb
theorem U5_arr (c : Dev nD) (w : Fin cfg2.W) :
    U5 m ρ c (Proc.devRef .tc (Pipeline.arrRef spec2 w)) = (dat2 (V4 m ρ) c).arrAt w cfg2.N :=
  Pipeline.withArrays_arr spec2 launch2.win.arr_inj c _ _ w
theorem U5_of_ne (c : Dev nD) (b : Ref sig .tc) (hb : ∀ w, Pipeline.arrRef spec2 w ≠ b) :
    U5 m ρ c (Proc.devRef .tc b) = U4 m ρ c (Proc.devRef .tc b) :=
  Pipeline.withArrays_of_ne spec2 c _ _ b hb
theorem U7_arr (c : Dev nD) (w : Fin cfg3.W) :
    U7 m ρ c (Proc.devRef .tc (Pipeline.arrRef spec3 w)) = (dat3 (V6 m ρ) c).arrAt w cfg3.N :=
  Pipeline.withArrays_arr spec3 launch3.win.arr_inj c _ _ w
theorem U7_of_ne (c : Dev nD) (b : Ref sig .tc) (hb : ∀ w, Pipeline.arrRef spec3 w ≠ b) :
    U7 m ρ c (Proc.devRef .tc b) = U6 m ρ c (Proc.devRef .tc b) :=
  Pipeline.withArrays_of_ne spec3 c _ _ b hb
theorem U9_arr (c : Dev nD) (w : Fin cfg4.W) :
    U9 m ρ c (Proc.devRef .tc (Pipeline.arrRef spec4 w)) = (dat4 (V8 m ρ) c).arrAt w cfg4.N :=
  Pipeline.withArrays_arr spec4 launch4.win.arr_inj c _ _ w
theorem U9_of_ne (c : Dev nD) (b : Ref sig .tc) (hb : ∀ w, Pipeline.arrRef spec4 w ≠ b) :
    U9 m ρ c (Proc.devRef .tc b) = U8 m ρ c (Proc.devRef .tc b) :=
  Pipeline.withArrays_of_ne spec4 c _ _ b hb

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V8 m ρ) c
abbrev 𝒱₀ : Variants := Variants.none
abbrev L : GSem nD τ sig → Finset Unit := fun _ => ∅
abbrev lv : GSem nD τ sig → Unit → ℕ := fun _ _ => 0
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m ρ) () defs₀ 𝒱₀ L lv 0 :=
  Cert.Lib.regionOf _ _ _ _ _ L lv 0 launch0.win launch0.block_pos launch0.stage_whole launch0.arr_whole
    (fun c => (body_obligation0 (V1 m ρ) c).loose) (fun _ _ => rfl) (fun _ _ => rfl) (fun _ _ => rfl) rfl (U1 m ρ)
    (fun _ _ => rfl) (fun _ => .rfl) (fun _ => .rfl)

set_option backward.isDefEq.respectTransparency.types false in
def reg1 : Pipeline.RegionSeg (pcfgs (F := F)) adm (pdats m ρ) () defs₀ 𝒱₀ L lv 1 :=
  Cert.Lib.regionOf _ _ _ _ _ L lv 1 launch1.win launch1.block_pos launch1.stage_whole launch1.arr_whole
    (fun c => (body_obligation1 (V2 m ρ) c).loose) (fun _ _ => rfl) (fun _ _ => rfl) (fun _ _ => rfl) rfl (U2 m ρ)
    (fun _ _ => rfl) (fun _ => .rfl) (fun _ => .rfl)

set_option backward.isDefEq.respectTransparency.types false in
def reg2 : Pipeline.RegionSeg (pcfgs (F := F)) adm (pdats m ρ) () defs₀ 𝒱₀ L lv 2 :=
  Cert.Lib.regionOf _ _ _ _ _ L lv 2 launch2.win launch2.block_pos launch2.stage_whole launch2.arr_whole
    (fun c => (body_obligation2 (V4 m ρ) c).loose) (fun _ _ => rfl) (fun _ _ => rfl) (fun _ _ => rfl) rfl (U4 m ρ)
    (fun _ _ => rfl) (fun _ => .rfl) (fun _ => .rfl)

set_option backward.isDefEq.respectTransparency.types false in
def reg3 : Pipeline.RegionSeg (pcfgs (F := F)) adm (pdats m ρ) () defs₀ 𝒱₀ L lv 3 :=
  Cert.Lib.regionOf _ _ _ _ _ L lv 3 launch3.win launch3.block_pos launch3.stage_whole launch3.arr_whole
    (fun c => (body_obligation3 (V6 m ρ) c).loose) (fun _ _ => rfl) (fun _ _ => rfl) (fun _ _ => rfl) rfl (U6 m ρ)
    (fun _ _ => rfl) (hin3 (V6 m ρ)) (hout3 (V6 m ρ))

set_option backward.isDefEq.respectTransparency.types false in
def reg4 : Pipeline.RegionSeg (pcfgs (F := F)) adm (pdats m ρ) () defs₀ 𝒱₀ L lv 4 :=
  Cert.Lib.regionOf _ _ _ _ _ L lv 4 launch4.win launch4.block_pos launch4.stage_whole launch4.arr_whole
    (fun c => (body_obligation4 (V8 m ρ) c).loose) (fun _ _ => rfl) (fun _ _ => rfl) (fun _ _ => rfl) rfl (U8 m ρ)
    (fun _ _ => rfl) (fun _ => .rfl) (fun _ => .rfl)

abbrev segs : List (Pipeline.Seg (pcfgs (F := F)) adm (pdats m ρ) () defs₀ 𝒱₀ L lv) :=
  [ .host (Cert.Lib.hostOf _ _ _ hostOps0 hostOps0_sub (by simp only [List.Forall]; repeat' constructor) (U0 m ρ)),
    .region (reg0 m ρ),
    .region (reg1 m ρ),
    .host (Cert.Lib.hostOf _ _ _ hostOps2 hostOps2_sub (by simp only [List.Forall]; repeat' constructor) (U3 m ρ)),
    .region (reg2 m ρ),
    .host (Cert.Lib.hostOf _ _ _ hostOps3 hostOps3_sub (by simp only [List.Forall]; repeat' constructor) (U5 m ρ)),
    .region (reg3 m ρ),
    .host (Cert.Lib.hostOf _ _ _ hostOps4 hostOps4_sub (by simp only [List.Forall]; repeat' constructor) (U7 m ρ)),
    .region (reg4 m ρ) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = U9 m ρ c b) :=
  Cert.Lib.run_of (pcfgs (F := F)) adm (pdats m ρ) defs₀ 𝒱₀ cellOf_inj m ρ main (segs m ρ) (main_run m ρ)
    (by simp only [segs, Pipeline.Seg.pipes_host, Pipeline.Seg.pipes_region, Pipeline.Seg.pipes_nil]; decide) (U9 m ρ)
    ⟨fun _ => .rfl, fun _ => .rfl, fun _ => .rfl, fun _ => .rfl, fun _ => .rfl, fun _ => .rfl, fun _ => .rfl, fun _ => .rfl, fun _ => .rfl, fun _ => sep_assoc'⟩

end Cert.KernelIdeal.Hand

end
-- ==== Proof.KIWalkArgs.lean ====
import proofs.«150297_g64080912056811_cont_9to1c4b_125_48_alg».proof.Proof.KIRun
import proofs.«150297_g64080912056811_cont_9to1c4b_125_48_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

abbrev hostW0 : List (Ref sig .tc) := hostOps0_W
abbrev hostW2 : List (Ref sig .tc) := hostOps2_W
abbrev hostW3 : List (Ref sig .tc) := hostOps3_W
abbrev hostW4 : List (Ref sig .tc) := hostOps4_W

theorem keeps_U1 (c : Dev nD) (r : Ref sig .tc) (h : r ∉ hostW0) :
    U1 m ρ c (Proc.devRef .tc r) = U0 m ρ c (Proc.devRef .tc r) :=
  StableHlo.after_of_writes_sub hostOps0 _ hostOps0_writes h
theorem keeps_U4 (c : Dev nD) (r : Ref sig .tc) (h : r ∉ hostW2) :
    U4 m ρ c (Proc.devRef .tc r) = U3 m ρ c (Proc.devRef .tc r) :=
  StableHlo.after_of_writes_sub hostOps2 _ hostOps2_writes h
theorem keeps_U6 (c : Dev nD) (r : Ref sig .tc) (h : r ∉ hostW3) :
    U6 m ρ c (Proc.devRef .tc r) = U5 m ρ c (Proc.devRef .tc r) :=
  StableHlo.after_of_writes_sub hostOps3 _ hostOps3_writes h
theorem keeps_U8 (c : Dev nD) (r : Ref sig .tc) (h : r ∉ hostW4) :
    U8 m ρ c (Proc.devRef .tc r) = U7 m ρ c (Proc.devRef .tc r) :=
  StableHlo.after_of_writes_sub hostOps4 _ hostOps4_writes h

theorem keeps_U2_in (c : Dev nD) (w : Fin cfg0.W) (hin : (cfg0.win w).isOut = false) :
    U2 m ρ c (Proc.devRef .tc (Pipeline.arrRef spec0 w)) = U1 m ρ c (Proc.devRef .tc (Pipeline.arrRef spec0 w)) :=
  (U2_arr m ρ c w).trans (((dat0 (V1 m ρ) c).arrAt_in w hin _).trans (A_eq0 (V1 m ρ) c w))
theorem keeps_U3_in (c : Dev nD) (w : Fin cfg1.W) (hin : (cfg1.win w).isOut = false) :
    U3 m ρ c (Proc.devRef .tc (Pipeline.arrRef spec1 w)) = U2 m ρ c (Proc.devRef .tc (Pipeline.arrRef spec1 w)) :=
  (U3_arr m ρ c w).trans (((dat1 (V2 m ρ) c).arrAt_in w hin _).trans (A_eq1 (V2 m ρ) c w))
theorem keeps_U5_in (c : Dev nD) (w : Fin cfg2.W) (hin : (cfg2.win w).isOut = false) :
    U5 m ρ c (Proc.devRef .tc (Pipeline.arrRef spec2 w)) = U4 m ρ c (Proc.devRef .tc (Pipeline.arrRef spec2 w)) :=
  (U5_arr m ρ c w).trans (((dat2 (V4 m ρ) c).arrAt_in w hin _).trans (A_eq2 (V4 m ρ) c w))
theorem keeps_U7_in (c : Dev nD) (w : Fin cfg3.W) (hin : (cfg3.win w).isOut = false) :
    U7 m ρ c (Proc.devRef .tc (Pipeline.arrRef spec3 w)) = U6 m ρ c (Proc.devRef .tc (Pipeline.arrRef spec3 w)) :=
  (U7_arr m ρ c w).trans (((dat3 (V6 m ρ) c).arrAt_in w hin _).trans (A_eq3 (V6 m ρ) c w))
theorem keeps_U9_in (c : Dev nD) (w : Fin cfg4.W) (hin : (cfg4.win w).isOut = false) :
    U9 m ρ c (Proc.devRef .tc (Pipeline.arrRef spec4 w)) = U8 m ρ c (Proc.devRef .tc (Pipeline.arrRef spec4 w)) :=
  (U9_arr m ρ c w).trans (((dat4 (V8 m ρ) c).arrAt_in w hin _).trans (A_eq4 (V8 m ρ) c w))

theorem walk_U9_of (c : Dev nD) (r : Ref sig .tc)
    (h : (r ∉ hostW0 ∧ r ∉ hostW2 ∧ r ∉ hostW3 ∧ r ∉ hostW4) ∧ (∀ w, Pipeline.arrRef spec0 w ≠ r) ∧ (∀ w, Pipeline.arrRef spec1 w ≠ r)
      ∧ (∀ w, Pipeline.arrRef spec2 w ≠ r) ∧ (∀ w, Pipeline.arrRef spec3 w ≠ r) ∧ ∀ w, Pipeline.arrRef spec4 w ≠ r) :
    U9 m ρ c (Proc.devRef .tc r) = m ((c : Thread nD τ).loc r) :=
  (U9_of_ne m ρ c r h.2.2.2.2.2).trans <| (keeps_U8 m ρ c r h.1.2.2.2).trans <| (U7_of_ne m ρ c r h.2.2.2.2.1).trans <|
    (keeps_U6 m ρ c r h.1.2.2.1).trans <| (U5_of_ne m ρ c r h.2.2.2.1).trans <| (keeps_U4 m ρ c r h.1.2.1).trans <|
    (U3_of_ne m ρ c r h.2.2.1).trans <| (U2_of_ne m ρ c r h.2.1).trans <| (keeps_U1 m ρ c r h.1.1).trans rfl

theorem walk_U9_arg0 (c : Dev nD) : U9 m ρ c (Proc.devRef .tc main_arg0) = m ((c : Thread nD τ).loc main_arg0) :=
  (keeps_U9_in m ρ c 1 rfl).trans <| (keeps_U8 m ρ c main_arg0 (by decide)).trans <| (keeps_U7_in m ρ c 1 rfl).trans <|
    (keeps_U6 m ρ c main_arg0 (by decide)).trans <| (U5_of_ne m ρ c main_arg0 (by decide)).trans <|
    (keeps_U4 m ρ c main_arg0 (by decide)).trans <| (U3_of_ne m ρ c main_arg0 (by decide)).trans <|
    (keeps_U2_in m ρ c 0 rfl).trans <| (keeps_U1 m ρ c main_arg0 (by decide)).trans rfl
theorem walk_U9_arg1 (c : Dev nD) : U9 m ρ c (Proc.devRef .tc main_arg1) = m ((c : Thread nD τ).loc main_arg1) :=
  walk_U9_of m ρ c main_arg1 (by decide)

theorem walk_U9_arg2 (c : Dev nD) : U9 m ρ c (Proc.devRef .tc main_arg2) = m ((c : Thread nD τ).loc main_arg2) :=
  (U9_of_ne m ρ c main_arg2 (by decide)).trans <| (keeps_U8 m ρ c main_arg2 (by decide)).trans <|
    (U7_of_ne m ρ c main_arg2 (by decide)).trans <| (keeps_U6 m ρ c main_arg2 (by decide)).trans <|
    (U5_of_ne m ρ c main_arg2 (by decide)).trans <| (keeps_U4 m ρ c main_arg2 (by decide)).trans <|
    (keeps_U3_in m ρ c 0 rfl).trans <| (U2_of_ne m ρ c main_arg2 (by decide)).trans <|
    (keeps_U1 m ρ c main_arg2 (by decide)).trans rfl
theorem walk_U9_arg3 (c : Dev nD) : U9 m ρ c (Proc.devRef .tc main_arg3) = m ((c : Thread nD τ).loc main_arg3) :=
  walk_U9_of m ρ c main_arg3 (by decide)
theorem walk_U9_arg4 (c : Dev nD) : U9 m ρ c (Proc.devRef .tc main_arg4) = m ((c : Thread nD τ).loc main_arg4) :=
  walk_U9_of m ρ c main_arg4 (by decide)
theorem walk_U9_arg5 (c : Dev nD) : U9 m ρ c (Proc.devRef .tc main_arg5) = m ((c : Thread nD τ).loc main_arg5) :=
  walk_U9_of m ρ c main_arg5 (by decide)
theorem walk_U9_arg6 (c : Dev nD) : U9 m ρ c (Proc.devRef .tc main_arg6) = m ((c : Thread nD τ).loc main_arg6) :=
  walk_U9_of m ρ c main_arg6 (by decide)
theorem walk_U9_arg7 (c : Dev nD) : U9 m ρ c (Proc.devRef .tc main_arg7) = m ((c : Thread nD τ).loc main_arg7) :=
  walk_U9_of m ρ c main_arg7 (by decide)
theorem walk_U9_arg8 (c : Dev nD) : U9 m ρ c (Proc.devRef .tc main_arg8) = m ((c : Thread nD τ).loc main_arg8) :=
  walk_U9_of m ρ c main_arg8 (by decide)

-- A final memory that holds the last item's contents holds every argument as launched.
theorem kept (c : Dev nD) {s : MemSt nD τ sig (Elt F)}
    (h : ∀ b ∈ Pipeline.ucRefs τ sig, s.mem ((c : Thread nD τ).1, b) = U9 m ρ c b) :
    ∀ r ∈ ([main_arg0, main_arg1, main_arg2, main_arg3, main_arg4, main_arg5, main_arg6, main_arg7, main_arg8] : List (Ref sig .tc)),
      s.mem ((c.tc : Thread nD τ).loc r) = m ((c.tc : Thread nD τ).loc r) := by
  simp only [List.forall_mem_cons, List.not_mem_nil, false_imp_iff, implies_true, and_true]
  exact ⟨(h _ (mem_uc main_arg0 (by decide))).trans (walk_U9_arg0 m ρ c), (h _ (mem_uc main_arg1 (by decide))).trans (walk_U9_arg1 m ρ c),
    (h _ (mem_uc main_arg2 (by decide))).trans (walk_U9_arg2 m ρ c), (h _ (mem_uc main_arg3 (by decide))).trans (walk_U9_arg3 m ρ c),
    (h _ (mem_uc main_arg4 (by decide))).trans (walk_U9_arg4 m ρ c), (h _ (mem_uc main_arg5 (by decide))).trans (walk_U9_arg5 m ρ c),
    (h _ (mem_uc main_arg6 (by decide))).trans (walk_U9_arg6 m ρ c), (h _ (mem_uc main_arg7 (by decide))).trans (walk_U9_arg7 m ρ c),
    (h _ (mem_uc main_arg8 (by decide))).trans (walk_U9_arg8 m ρ c)⟩

end Cert.KernelIdeal.Hand

end
-- ==== Proof.KITerms.lean ====
import proofs.«150297_g64080912056811_cont_9to1c4b_125_48_alg».proof.Proof.Gen.KernelIdeal

noncomputable section

namespace Cert.KernelIdeal.Hand

open Idealize.ShloMosaic Idealize.SL.Sem
open Cert.KernelIdeal Cert.KernelIdeal.Facts₀

variable [Cert.KernelIdeal.Facts]

def kSrc (ei : IVec S2x160000 32) : IVec S160000 32 :=
  shapeCast S160000 (extractStridedSlice S1x160000 ![0, 0] ei slices_S2x160000_S1x160000_0_0)
    shapeCasts_S1x160000_S160000

def kDst (ei : IVec S2x160000 32) : IVec S160000 32 :=
  shapeCast S160000 (extractStridedSlice S1x160000 ![1, 0] ei slices_S2x160000_S1x160000_1_0)
    shapeCasts_S1x160000_S160000

def kNormIdx (v : IVec S160000 32) : IVec S160000x1 32 :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 10000#32)))
      v)

end Cert.KernelIdeal.Hand

end
-- ==== Proof.KIWalk.lean ====
import proofs.«150297_g64080912056811_cont_9to1c4b_125_48_alg».proof.Proof.KIWalkArgs
import proofs.«150297_g64080912056811_cont_9to1c4b_125_48_alg».proof.Proof.KITerms

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F] [Named F]

variable (m : (ℓ : Loc nD τ sig) → Buf (Elt F) ℓ) (ρ : Dev nD → PrngReg)

theorem walk_U7_of (c : Dev nD) (r : Ref sig .tc) (h0 : r ∉ hostW0) (h2 : r ∉ hostW2) (h3 : r ∉ hostW3)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) :
    U7 m ρ c (Proc.devRef .tc r) = m ((c : Thread nD τ).loc r) :=
  (U7_of_ne m ρ c r a3).trans <| (keeps_U6 m ρ c r h3).trans <| (U5_of_ne m ρ c r a2).trans <|
    (keeps_U4 m ρ c r h2).trans <| (U3_of_ne m ρ c r a1).trans <| (U2_of_ne m ρ c r a0).trans <|
    (keeps_U1 m ρ c r h0).trans rfl

theorem walk_V1_arg0 (c : Dev nD) : V1 m ρ c main_arg0 = m ((c : Thread nD τ).loc main_arg0) :=
  (keeps_U1 m ρ c main_arg0 (by decide)).trans rfl

theorem U1_v1 (c : Dev nD) : U1 m ρ c (Proc.devRef .tc main_v1) = kSrc (m ((c : Thread nD τ).loc main_arg1)) := by
  show StableHlo.after hostOps0 _ (Proc.devRef .tc main_v1) = _
  after_results <;> rfl

theorem U1_v3 (c : Dev nD) : U1 m ρ c (Proc.devRef .tc main_v3) = kDst (m ((c : Thread nD τ).loc main_arg1)) := by
  show StableHlo.after hostOps0 _ (Proc.devRef .tc main_v3) = _
  after_results <;> rfl

theorem walk_V1_v6 (c : Dev nD) : V1 m ρ c main_v6 =
    concatenate S256x512 1 [⟨S256x256, extractStridedSlice S256x256 ![0, 0] (m ((c : Thread nD τ).loc main_arg3)) slices_S528x256_S256x256_0_0⟩,
      ⟨S256x256, extractStridedSlice S256x256 ![0, 0] (m ((c : Thread nD τ).loc main_arg5)) slices_S528x256_S256x256_0_0⟩]
      concatenates_S256x256_S256x256_S256x512_d1 := by
  show StableHlo.after hostOps0 _ (Proc.devRef .tc main_v6) = _
  after_results <;> rfl

theorem walk_V1_v9 (c : Dev nD) : V1 m ρ c main_v9 =
    concatenate S256x512 1 [⟨S256x256, extractStridedSlice S256x256 ![256, 0] (m ((c : Thread nD τ).loc main_arg3)) slices_S528x256_S256x256_256_0⟩,
      ⟨S256x256, extractStridedSlice S256x256 ![256, 0] (m ((c : Thread nD τ).loc main_arg5)) slices_S528x256_S256x256_256_0⟩]
      concatenates_S256x256_S256x256_S256x512_d1 := by
  show StableHlo.after hostOps0 _ (Proc.devRef .tc main_v9) = _
  after_results <;> rfl

theorem walk_V1_v14 (c : Dev nD) : V1 m ρ c main_v14 =
    shapeCast S1x512 (concatenate S512 0 [⟨S256, m ((c : Thread nD τ).loc main_arg4)⟩, ⟨S256, m ((c : Thread nD τ).loc main_arg6)⟩]
      concatenates_S256_S256_S512_d0) shapeCasts_S512_S1x512 := by
  show StableHlo.after hostOps0 _ (Proc.devRef .tc main_v14) = _
  after_results <;> rfl

theorem walk_V2_arg2 (c : Dev nD) : V2 m ρ c main_arg2 = m ((c : Thread nD τ).loc main_arg2) :=
  (U2_of_ne m ρ c main_arg2 (by decide)).trans <| (keeps_U1 m ρ c main_arg2 (by decide)).trans rfl

theorem walk_V2_v12 (c : Dev nD) : V2 m ρ c main_v12 =
    concatenate S16x512 1 [⟨S16x256, extractStridedSlice S16x256 ![512, 0] (m ((c : Thread nD τ).loc main_arg3)) slices_S528x256_S16x256_512_0⟩,
      ⟨S16x256, extractStridedSlice S16x256 ![512, 0] (m ((c : Thread nD τ).loc main_arg5)) slices_S528x256_S16x256_512_0⟩]
      concatenates_S16x256_S16x256_S16x512_d1 := by
  refine (U2_of_ne m ρ c main_v12 (by decide)).trans ?_
  show StableHlo.after hostOps0 _ (Proc.devRef .tc main_v12) = _
  after_results <;> rfl

theorem U3_v1 (c : Dev nD) : U3 m ρ c (Proc.devRef .tc main_v1) = kSrc (m ((c : Thread nD τ).loc main_arg1)) :=
  (U3_of_ne m ρ c main_v1 (by decide)).trans <| (U2_of_ne m ρ c main_v1 (by decide)).trans (U1_v1 m ρ c)
theorem U3_v3 (c : Dev nD) : U3 m ρ c (Proc.devRef .tc main_v3) = kDst (m ((c : Thread nD τ).loc main_arg1)) :=
  (U3_of_ne m ρ c main_v3 (by decide)).trans <| (U2_of_ne m ρ c main_v3 (by decide)).trans (U1_v3 m ρ c)

set_option maxHeartbeats 1000000 in
theorem walk_V4_v32 (c : Dev nD) : V4 m ρ c main_v32 =
    addf (addf
      (Host.gather gather_S10000x512_S160000x1_S160000x512_1_0_n_n_0_1_1512 ((dat0 (V1 m ρ) c).arrAt 4 cfg0.N)
        (kNormIdx (kDst (m ((c : Thread nD τ).loc main_arg1)))))
      (Host.gather gather_S10000x512_S160000x1_S160000x512_1_0_n_n_0_1_1512 ((dat0 (V1 m ρ) c).arrAt 5 cfg0.N)
        (kNormIdx (kSrc (m ((c : Thread nD τ).loc main_arg1))))))
      ((dat1 (V2 m ρ) c).arrAt 2 cfg1.N) := by
  rw [← U3_v3 m ρ c, ← U3_v1 m ρ c, ← U3_arr m ρ c 2,
    ← (U3_of_ne m ρ c main_v15_0 (by decide)).trans (U2_arr m ρ c 4),
    ← (U3_of_ne m ρ c main_v15_1 (by decide)).trans (U2_arr m ρ c 5)]
  show StableHlo.after hostOps2 _ (Proc.devRef .tc main_v32) = _
  after_results_simp <;> rfl

theorem U5_v3 (c : Dev nD) : U5 m ρ c (Proc.devRef .tc main_v3) = kDst (m ((c : Thread nD τ).loc main_arg1)) :=
  (U5_of_ne m ρ c main_v3 (by decide)).trans <| (keeps_U4 m ρ c main_v3 (by decide)).trans (U3_v3 m ρ c)

theorem walk_V6_v36 (c : Dev nD) : V6 m ρ c main_v36 =
    Host.scatterAdd scatter_S10000x256_S160000x1_S160000x256_1_0_0_1
      (broadcastInDim S10000x256 ![] bcast_S_S10000x256 (constant (F := F) S_ .f32 0x00000000#32))
      (broadcastInDim S160000x1 ![0] bcast_S160000_S160000x1_0 (kDst (m ((c : Thread nD τ).loc main_arg1))))
      ((dat2 (V4 m ρ) c).arrAt 1 cfg2.N) := by
  rw [← U5_v3 m ρ c, ← U5_arr m ρ c 1]
  show StableHlo.after hostOps3 _ (Proc.devRef .tc main_v36) = _
  after_results <;> rfl

theorem walk_V6_arg0 (c : Dev nD) : V6 m ρ c main_arg0 = m ((c : Thread nD τ).loc main_arg0) :=
  (keeps_U6 m ρ c main_arg0 (by decide)).trans <| (U5_of_ne m ρ c main_arg0 (by decide)).trans <|
    (keeps_U4 m ρ c main_arg0 (by decide)).trans <| (U3_of_ne m ρ c main_arg0 (by decide)).trans <|
    (keeps_U2_in m ρ c 0 rfl).trans <| (keeps_U1 m ρ c main_arg0 (by decide)).trans rfl

theorem walk_V8_v36 (c : Dev nD) : V8 m ρ c main_v36 = V6 m ρ c main_v36 :=
  (keeps_U8 m ρ c main_v36 (by decide)).trans (keeps_U7_in m ρ c 0 rfl)

theorem walk_V8_arg0 (c : Dev nD) : V8 m ρ c main_arg0 = m ((c : Thread nD τ).loc main_arg0) :=
  (keeps_U8 m ρ c main_arg0 (by decide)).trans <| (keeps_U7_in m ρ c 1 rfl).trans (walk_V6_arg0 m ρ c)

theorem walk_V8_v37 (c : Dev nD) : V8 m ρ c main_v37 = (dat3 (V6 m ρ) c).arrAt 2 cfg3.N :=
  (keeps_U8 m ρ c main_v37 (by decide)).trans (U7_arr m ρ c 2)

theorem walk_V8_v38 (c : Dev nD) : V8 m ρ c main_v38 =
    shapeCast S1x256 (m ((c : Thread nD τ).loc main_arg7)) shapeCasts_S256_S1x256 := by
  have e : U8 m ρ c (Proc.devRef .tc main_v38) = shapeCast S1x256 (U7 m ρ c (Proc.devRef .tc main_arg7)) shapeCasts_S256_S1x256 := by
    show StableHlo.after hostOps4 _ (Proc.devRef .tc main_v38) = _
    after_results <;> rfl
  refine e.trans ?_
  rw [walk_U7_of m ρ c main_arg7 (by decide) (by decide) (by decide) (by decide) (by decide) (by decide) (by decide)]
theorem walk_V8_v39 (c : Dev nD) : V8 m ρ c main_v39 =
    shapeCast S1x256 (m ((c : Thread nD τ).loc main_arg8)) shapeCasts_S256_S1x256 := by
  have e : U8 m ρ c (Proc.devRef .tc main_v39) = shapeCast S1x256 (U7 m ρ c (Proc.devRef .tc main_arg8)) shapeCasts_S256_S1x256 := by
    show StableHlo.after hostOps4 _ (Proc.devRef .tc main_v39) = _
    after_results <;> rfl
  refine e.trans ?_
  rw [walk_U7_of m ρ c main_arg8 (by decide) (by decide) (by decide) (by decide) (by decide) (by decide) (by decide)]

theorem walk_U9_v40 (c : Dev nD) : U9 m ρ c (Proc.devRef .tc main_v40) = (dat4 (V8 m ρ) c).arrAt 5 cfg4.N :=
  U9_arr m ρ c 5

end Cert.KernelIdeal.Hand

end
-- ==== Proof.LibRowsByCols.lean ====
import Idealize.ShloMosaic.PureOps.Ideal.Laws
import Idealize.ShloMosaic.Lib.ValueIdx
import Idealize.ShloMosaic.Lib.Pipeline.Value

noncomputable section

open scoped BigOperators

namespace Cert.Lib.RowsByCols

open Idealize.ShloMosaic Idealize.ShloMosaic.ValueIdx

variable {M K N : Nat} (d : DotDims (⟨2, ![M, K]⟩ : Shape) (⟨2, ![K, N]⟩ : Shape) (⟨2, ![M, N]⟩ : Shape))

structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

theorem val_at (j : (⟨2, ![M, N]⟩ : Shape).Idx) {p p' : Nat} (hp : p < 2) (hp' : p' < 2) (e : p = p') :
    (j ⟨p, hp⟩).val = (j ⟨p', hp'⟩).val := by subst e; rfl

theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_at j _ Nat.zero_lt_two (by simp [h.lb, h.ln])

theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_at j _ Nat.one_lt_two (by simp [h.lb, h.ln, h.rn])

theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  exact congrArg₂ (· * ·)
    (congrArg l (Shape.idx_ext₂ (lhs_row h _ _) ((d.lhsIdx_val_of_single h.lc _ _).trans hk)))
    (congrArg r (Shape.idx_ext₂ ((d.rhsIdx_val_of_single h.rc _ _).trans hk) (rhs_col h _ _)))

/-- Rows by columns: entry (i, j) of the product of an M × K matrix with a K × N matrix. -/
def entry (l : (⟨2, ![M, K]⟩ : Shape).Idx → EReal) (r : (⟨2, ![K, N]⟩ : Shape).Idx → EReal) (i : Fin M) (j : Fin N) : EReal :=
  ∑ k : Fin K, l (ix2 i k) * r (ix2 k j)

theorem entry_congr {M' N' : Nat} {l : (⟨2, ![M, K]⟩ : Shape).Idx → EReal} {r : (⟨2, ![K, N]⟩ : Shape).Idx → EReal}
    {l' : (⟨2, ![M', K]⟩ : Shape).Idx → EReal} {r' : (⟨2, ![K, N']⟩ : Shape).Idx → EReal} {i : Fin M} {j : Fin N} {i' : Fin M'} {j' : Fin N'}
    (hl : ∀ k, l (ix2 i k) = l' (ix2 i' k)) (hr : ∀ k, r (ix2 k j) = r' (ix2 k j')) : entry l r i j = entry l' r' i' j' :=
  Finset.sum_congr rfl fun k _ => congrArg₂ (· * ·) (hl k) (hr k)

theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = entry l r (j 0) (j 1) :=
  (Ideal.matmul_constant_zero_apply d prec l r j).trans (sum_eq h l r j)

theorem zero2 : (![0, 0] : Fin 2 → Nat) = fun _ => 0 := funext fun a => by fin_cases a <;> rfl

theorem same_block {n n' s x : Nat} (h : n = n') : n * s + x = n' * s + x := by rw [h]

theorem zero_block {n s x : Nat} (h : n = 0) : x = n * s + x := by rw [h, Nat.zero_mul, Nat.zero_add]

/-- A block of a whole array, read at an entry, is the array at the block's offset plus the entry's coordinate. -/
theorem read_block {sig : RefSig} {κ : Kind} {Val : EltTy → Type} (b : Ref sig κ) {off size : Fin b.ty.shape.rank → Nat} {inb}
    (f : (View.whole b).ty.Contents Val) (x : (Rect.unit (s := b.ty.shape) off size inb).shape.Idx) (k : b.ty.shape.Idx)
    (hk : ∀ a, (k a).val = off a + (x a).val) :
    ((View.whole b).slice (Rect.unit off size inb)).read Val f x = f k := by
  show f _ = f k
  refine congrArg f (funext fun a => Fin.ext ?_)
  rw [hk a]
  show off a + 1 * (x a).val = _
  rw [Nat.one_mul]

/-- An index lies in the block numbered, on each axis, by its coordinate divided by the block's size. -/
theorem mem_block {sig : RefSig} {κ : Kind} (b : Ref sig κ) {q size : Fin b.ty.shape.rank → Nat} {inb} (i : b.ty.shape.Idx)
    (hq : ∀ a, q a = (i a).val / size a) (hp : ∀ a, 0 < size a) :
    i ∈ ((View.whole b).slice (Rect.unit (s := b.ty.shape) (fun a => q a * size a) size inb)).set := by
  rw [View.set_slice_whole, Rect.mem_set_unit]
  exact fun a => by rw [hq a]; exact ⟨Nat.div_mul_le_self _ _, Nat.lt_div_mul_add (hp a)⟩

end Cert.Lib.RowsByCols

end
-- ==== Proof.KIVal0.lean ====
import proofs.«150297_g64080912056811_cont_9to1c4b_125_48_alg».proof.Proof.KIReg0
import proofs.«150297_g64080912056811_cont_9to1c4b_125_48_alg».proof.Proof.LibRowsByCols
import Idealize.ShloMosaic.Lib.ValueLayout

noncomputable section

open scoped BigOperators

namespace Cert.KernelIdeal.Hand

open Cert.KernelIdeal Cert.KernelIdeal.Gen Cert.Lib.RowsByCols
open Idealize.ShloMosaic Idealize.ShloMosaic.TcCoe Idealize.SL.Sem Idealize.ShloMosaic.ValueIdx
open Idealize.ShloMosaic.Pipeline (Dat)

theorem plain0 : Plain dot_S2000x256_S256x512_S2000x512_1_0_0_1_n_n :=
  ⟨rfl, rfl, rfl, rfl, rfl, rfl⟩

theorem k0_pay1_apply (x0 : Vec Ideal S2000x256 .f32) (x1 : Vec Ideal S256x512 .f32) (x3 : Vec Ideal S1x512 .f32)
    (p : Fin 2000) (q : Fin 512) :
    k0_pay1 x0 x1 x3 (ix2 p q) = entry x0 x1 p q + x3 (ix2 (0 : Fin 1) q) := by
  unfold k0_pay1
  rw [addf_apply, shapeCast_self, shapeCast_self, broadcastTo_1b_ab_apply]
  exact congrArg (· + x3 (ix2 (0 : Fin 1) q)) (matmul_zero_apply plain0 none x0 x1 (ix2 p q))

theorem k0_pay2_apply (x0 : Vec Ideal S2000x256 .f32) (x2 : Vec Ideal S256x512 .f32) (p : Fin 2000) (q : Fin 512) :
    k0_pay2 x0 x2 (ix2 p q) = entry x0 x2 p q := by
  unfold k0_pay2
  rw [shapeCast_self]
  exact matmul_zero_apply plain0 none x0 x2 (ix2 p q)

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

theorem iblk0_0_apply (c : Dev nD) (t : Fin cfg0.N) (x : S2000x256.Idx) (k : S10000x256.Idx)
    (hk0 : (k 0).val = t.val * 2000 + (x 0).val) (hk1 : (k 1).val = (x 1).val) :
    (iblk0 V c 0 t : Vec Ideal S2000x256 .f32) x = (V c main_arg0 : S10000x256.Idx → EReal) k :=
  read_block main_arg0 _ x k (Fin.forall_fin_two.mpr ⟨hk0.trans (same_block (idx_facts0 t).1.symm), hk1.trans (zero_block (idx_facts0 t).2.1)⟩)

theorem iblk0_1_apply (c : Dev nD) (t : Fin cfg0.N) (x k : S256x512.Idx)
    (hk0 : (k 0).val = (x 0).val) (hk1 : (k 1).val = (x 1).val) :
    (iblk0 V c 1 t : Vec Ideal S256x512 .f32) x = (V c main_v6 : S256x512.Idx → EReal) k :=
  read_block main_v6 _ x k (Fin.forall_fin_two.mpr ⟨hk0.trans (zero_block (idx_facts0 t).2.2.1), hk1.trans (zero_block (idx_facts0 t).2.2.2.1)⟩)

theorem iblk0_2_apply (c : Dev nD) (t : Fin cfg0.N) (x k : S256x512.Idx)
    (hk0 : (k 0).val = (x 0).val) (hk1 : (k 1).val = (x 1).val) :
    (iblk0 V c 2 t : Vec Ideal S256x512 .f32) x = (V c main_v9 : S256x512.Idx → EReal) k :=
  read_block main_v9 _ x k (Fin.forall_fin_two.mpr ⟨hk0.trans (zero_block (idx_facts0 t).2.2.2.2.1), hk1.trans (zero_block (idx_facts0 t).2.2.2.2.2.1)⟩)

theorem iblk0_3_apply (c : Dev nD) (t : Fin cfg0.N) (x k : S1x512.Idx)
    (hk0 : (k 0).val = (x 0).val) (hk1 : (k 1).val = (x 1).val) :
    (iblk0 V c 3 t : Vec Ideal S1x512 .f32) x = (V c main_v14 : S1x512.Idx → EReal) k :=
  read_block main_v14 _ x k (Fin.forall_fin_two.mpr ⟨hk0.trans (zero_block (idx_facts0 t).2.2.2.2.2.2.1), hk1.trans (zero_block (idx_facts0 t).2.2.2.2.2.2.2.1)⟩)

abbrev G0_4 (a0 : S10000x256.Idx → EReal) (a1 : S256x512.Idx → EReal) (a3 : S1x512.Idx → EReal) : S10000x512.Idx → EReal :=
  fun i => entry a0 a1 (i 0) (i 1) + a3 (ix2 (0 : Fin 1) (i 1))

abbrev G0_5 (a0 : S10000x256.Idx → EReal) (a2 : S256x512.Idx → EReal) : S10000x512.Idx → EReal :=
  fun i => entry a0 a2 (i 0) (i 1)

theorem arr0_4 (c : Dev nD) :
    (dat0 (F := Ideal) V c).arrAt 4 cfg0.N = G0_4 (V c main_arg0) (V c main_v6) (V c main_v14) :=
  (dat0 V c).arrAt_eq_of_cover 4 _ (fun t _ => by
    show (cfg0.win 4).cut (grid0.coords t) ((dat0 V c).after 4 t) = _
    rw [after0_4]
    unfold out0_4
    rw [View.canon_unit_zero zero2]
    simp only [View.ld_unit_zero (S := S2000x256) zero2, View.ld_unit_zero (S := S256x512) zero2, View.ld_unit_zero (S := S1x512) zero2]
    obtain ⟨-, -, -, -, -, -, -, -, e0, e1, -⟩ := idx_facts0 t
    refine funext fun (j : S2000x512.Idx) => ?_
    obtain ⟨p, q, rfl⟩ : ∃ (p : Fin 2000) (q : Fin 512), j = ix2 p q := ⟨j 0, j 1, eq_ix2 j⟩
    refine (k0_pay1_apply _ _ _ p q).trans ?_
    show _ = G0_4 (V c main_arg0) (V c main_v6) (V c main_v14) (((cfg0.win 4).blk t).view.emb (ix2 p q))
    have h0 := (win0_4.rect_emb_val t (ix2 p q) 0).trans (same_block e0)
    have h1 := (win0_4.rect_emb_val t (ix2 p q) 1).trans (zero_block e1).symm
    exact congrArg₂ (· + ·) (entry_congr (fun k => iblk0_0_apply V c t (ix2 p k) _ h0 rfl) fun k => iblk0_1_apply V c t (ix2 k q) _ rfl h1)
      (iblk0_3_apply V c t (ix2 (0 : Fin 1) q) _ rfl h1))
    fun i => by
      have hi0 : (i 0).val < 10000 := (i 0).isLt
      have ht : (i 0).val / 2000 < cfg0.N := by rw [show cfg0.N = 5 from N_0]; omega
      obtain ⟨-, -, -, -, -, -, -, -, e0, e1, -⟩ := idx_facts0 ⟨_, ht⟩
      exact ⟨_, flush0_4 _, mem_block main_v15_0 i (Fin.forall_fin_two.mpr ⟨e0, e1.trans (Nat.div_eq_of_lt (i 1).isLt).symm⟩) (by decide)⟩

theorem arr0_5 (c : Dev nD) :
    (dat0 (F := Ideal) V c).arrAt 5 cfg0.N = G0_5 (V c main_arg0) (V c main_v9) :=
  (dat0 V c).arrAt_eq_of_cover 5 _ (fun t _ => by
    show (cfg0.win 5).cut (grid0.coords t) ((dat0 V c).after 5 t) = _
    rw [after0_5]
    unfold out0_5
    rw [View.canon_unit_zero zero2]
    simp only [View.ld_unit_zero (S := S2000x256) zero2, View.ld_unit_zero (S := S256x512) zero2]
    obtain ⟨-, -, -, -, -, -, -, -, -, -, e0, e1⟩ := idx_facts0 t
    refine funext fun (j : S2000x512.Idx) => ?_
    obtain ⟨p, q, rfl⟩ : ∃ (p : Fin 2000) (q : Fin 512), j = ix2 p q := ⟨j 0, j 1, eq_ix2 j⟩
    refine (k0_pay2_apply _ _ p q).trans ?_
    show _ = G0_5 (V c main_arg0) (V c main_v9) (((cfg0.win 5).blk t).view.emb (ix2 p q))
    exact entry_congr (fun k => iblk0_0_apply V c t (ix2 p k) _ ((win0_5.rect_emb_val t (ix2 p q) 0).trans (same_block e0)) rfl)
      fun k => iblk0_2_apply V c t (ix2 k q) _ rfl ((win0_5.rect_emb_val t (ix2 p q) 1).trans (zero_block e1).symm))
    fun i => by
      have hi0 : (i 0).val < 10000 := (i 0).isLt
      have ht : (i 0).val / 2000 < cfg0.N := by rw [show cfg0.N = 5 from N_0]; omega
      obtain ⟨-, -, -, -, -, -, -, -, -, -, e0, e1⟩ := idx_facts0 ⟨_, ht⟩
      exact ⟨_, flush0_5 _, mem_block main_v15_1 i (Fin.forall_fin_two.mpr ⟨e0, e1.trans (Nat.div_eq_of_lt (i 1).isLt).symm⟩) (by decide)⟩

end Cert.KernelIdeal.Hand

end
-- ==== Proof.KIVal1.lean ====
import proofs.«150297_g64080912056811_cont_9to1c4b_125_48_alg».proof.Proof.KIReg1
import proofs.«150297_g64080912056811_cont_9to1c4b_125_48_alg».proof.Proof.LibRowsByCols

noncomputable section

open scoped BigOperators

namespace Cert.KernelIdeal.Hand

open Cert.KernelIdeal Cert.KernelIdeal.Gen Cert.Lib.RowsByCols
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem arr1_2 (c : Dev nD) :
    (dat1 (F := Ideal) V c).arrAt 2 cfg1.N = fun i => entry (M := 160000) (K := 16) (N := 512) (V c main_arg2) (V c main_v12) (i 0) (i 1) :=
  (dat1 V c).arrAt_eq_of_cover 2 _ (fun t _ => by
    show (cfg1.win 2).cut (grid1.coords t) ((dat1 V c).after 2 t) = _
    rw [after1_2]
    unfold out1_2 k1_pay1
    rw [View.canon_unit_zero zero2]
    simp only [View.ld_unit_zero (S := S2000x16) zero2, View.ld_unit_zero (S := S16x512) zero2, shapeCast_self]
    obtain ⟨e0, e1, e2, e3, e4, e5⟩ := block_index1 t
    funext j
    refine (matmul_zero_apply (d := dot_S2000x16_S16x512_S2000x512_1_0_0_1_n_n) ⟨rfl, rfl, rfl, rfl, rfl, rfl⟩ none _ _ j).trans ?_
    show _ = entry (K := 16) (V c main_arg2) (V c main_v12) _ _
    exact (entry_congr
        (fun k => read_block main_arg2 _ _ _ (Fin.forall_fin_two.mpr ⟨(win1_2.rect_emb_val t j 0).trans (same_block (e4.trans e0.symm)), zero_block e1⟩))
        (fun k => read_block main_v12 _ _ _ (Fin.forall_fin_two.mpr ⟨zero_block e2, (win1_2.rect_emb_val t j 1).trans (same_block (e5.trans e3.symm))⟩))))
    fun i => by
      have hi0 : (i 0).val < 160000 := (i 0).isLt
      have ht : (i 0).val / 2000 < cfg1.N := by rw [show cfg1.N = 80 from N_1]; omega
      obtain ⟨-, -, -, -, e4, e5⟩ := block_index1 ⟨_, ht⟩
      exact ⟨_, flush1_2 _, mem_block main_v16 i (Fin.forall_fin_two.mpr ⟨e4, e5.trans (Nat.div_eq_of_lt (i 1).isLt).symm⟩) (by decide)⟩

end Cert.KernelIdeal.Hand

end
-- ==== Proof.Spec.lean ====
import Idealize.ShloMosaic.Lib.ValueIdx

noncomputable section

namespace Cert.Spec

open Idealize.ShloMosaic Idealize.ShloMosaic.ValueIdx

abbrev Mat (a b : Nat) := (⟨2, ![a, b]⟩ : Shape).Idx → EReal

abbrev Vect (a : Nat) := (⟨1, ![a]⟩ : Shape).Idx → EReal

def c0 : EReal := Ideal.ofBits .f32 0x00000000#32
def c1 : EReal := Ideal.ofBits .f32 0x3F800000#32
def cEps : EReal := Ideal.ofBits .f32 0x3727C5AC#32
def c10k : EReal := Ideal.ofBits .f32 0x461C4000#32
def cNaN : EReal := Ideal.ofBits .f32 0x7FC00000#32

def invN : EReal := ((1 / 10000 : ℝ) : EReal)

def ddof : EReal := ((((0#32 : BitVec 32).toInt : ℤ) : ℝ) : EReal)

def gateK (t : EReal) : EReal := Ideal.div c1 (c1 + Ideal.exp (c0 - t))

def gateR (t : EReal) : EReal := Ideal.div c1 (c1 + Ideal.exp (-t))

def softK (t : EReal) : EReal := max t c0 + Ideal.log1p (Ideal.exp (c0 - max t (-t)))

def softR (t : EReal) : EReal :=
  Scalar.select (Ideal.cmp .une (t - c0) (t - c0)) (t + c0)
    (max t c0 + Ideal.log1p (Ideal.exp (-(max (t - c0) (-(t - c0))))))

section Message

variable (x : Mat 10000 256) (ea : Mat 160000 16) (d s : Fin 160000 → Fin 10000)

def zcat (e : Fin 160000) (k : Fin 528) : EReal :=
  if h : k.val < 256 then x (ix2 (d e) ⟨k.val, h⟩)
  else if h2 : k.val < 512 then x (ix2 (s e) ⟨k.val - 256, by omega⟩)
  else ea (ix2 e ⟨k.val - 512, by omega⟩)

def preR (W : Mat 528 256) (b : Vect 256) (e : Fin 160000) (j : Fin 256) : EReal :=
  (∑ k : Fin 528, zcat x ea d s e k * W (ix2 k j)) + b (ix1 j)

def preK (W : Mat 528 256) (b : Vect 256) (e : Fin 160000) (j : Fin 256) : EReal :=
  (((∑ k : Fin 256, x (ix2 (d e) k) * W (ix2 ⟨k.val, by omega⟩ j)) + b (ix1 j))
      + ∑ k : Fin 256, x (ix2 (s e) k) * W (ix2 ⟨256 + k.val, by omega⟩ j))
    + ∑ k : Fin 16, ea (ix2 e k) * W (ix2 ⟨512 + k.val, by omega⟩ j)

variable (Wf : Mat 528 256) (bf : Vect 256) (Ws : Mat 528 256) (bs : Vect 256)

def msgK (e : Fin 160000) (j : Fin 256) : EReal :=
  gateK (preK x ea d s Wf bf e j) * softK (preK x ea d s Ws bs e j)

def msgR (e : Fin 160000) (j : Fin 256) : EReal :=
  gateR (preR x ea d s Wf bf e j) * softR (preR x ea d s Ws bs e j)

end Message

section Norm

variable (cv : Mat 10000 256) (x : Mat 10000 256) (gam bet : Vect 256)

def meanR (j : Fin 256) : EReal := Ideal.div (c0 + ∑ n : Fin 10000, cv (ix2 n j)) c10k

def varR (j : Fin 256) : EReal :=
  Scalar.select (Ideal.cmp .ogt (c10k - ddof) c0)
    (Ideal.div (c0 + ∑ n : Fin 10000, (cv (ix2 n j) - meanR cv j) * (cv (ix2 n j) - meanR cv j)) (c10k - ddof))
    cNaN

def normR (n : Fin 10000) (j : Fin 256) : EReal :=
  Ideal.div (cv (ix2 n j) - meanR cv j) (Ideal.sqrt (varR cv j + cEps)) * gam (ix1 j) + bet (ix1 j)

def outR (n : Fin 10000) (j : Fin 256) : EReal :=
  x (ix2 n j) + normR cv gam bet n j * gateR (normR cv gam bet n j)

def blockSum (f : Fin 10000 → EReal) (b : Fin 5) : EReal := ∑ r : Fin 2000, f ⟨2000 * b.val + r.val, by omega⟩

def accSum (f : Fin 10000 → EReal) : EReal :=
  (((blockSum f 0 + blockSum f 1) + blockSum f 2) + blockSum f 3) + blockSum f 4

def s1K (j : Fin 256) : EReal := accSum fun n => cv (ix2 n j)
def s2K (j : Fin 256) : EReal := accSum fun n => cv (ix2 n j) * cv (ix2 n j)

def meanK (j : Fin 256) : EReal := s1K cv j * invN
def varK (j : Fin 256) : EReal := s2K cv j * invN - meanK cv j * meanK cv j
def rstdK (j : Fin 256) : EReal := Ideal.rsqrt (varK cv j + cEps)

def normK (n : Fin 10000) (j : Fin 256) : EReal :=
  ((cv (ix2 n j) - meanK cv j) * rstdK cv j) * gam (ix1 j) + bet (ix1 j)

def outK (n : Fin 10000) (j : Fin 256) : EReal :=
  x (ix2 n j) + normK cv gam bet n j * gateK (normK cv gam bet n j)

end Norm

def edgeActK (z : Mat 160000 512) (e : Fin 160000) (j : Fin 256) : EReal :=
  gateK (z (ix2 e ⟨j.val, by omega⟩)) * softK (z (ix2 e ⟨256 + j.val, by omega⟩))

def finalK (agg x : Mat 10000 256) (st : Mat 2 256) (g b : Mat 1 256) (n : Fin 10000) (j : Fin 256) : EReal :=
  x (ix2 n j)
    + ((((agg (ix2 n j) + x (ix2 n j)) - st (ix2 0 j) * invN)
          * Ideal.rsqrt ((st (ix2 1 j) * invN - (st (ix2 0 j) * invN) * (st (ix2 0 j) * invN)) + cEps)) * g (ix2 0 j) + b (ix2 0 j))
      * gateK ((((agg (ix2 n j) + x (ix2 n j)) - st (ix2 0 j) * invN)
          * Ideal.rsqrt ((st (ix2 1 j) * invN - (st (ix2 0 j) * invN) * (st (ix2 0 j) * invN)) + cEps)) * g (ix2 0 j) + b (ix2 0 j))

def addM (a b : Mat 10000 256) : Mat 10000 256 := fun q => a q + b q

def IsReal (v : EReal) : Prop := ∃ r : ℝ, v = (r : EReal)

end Cert.Spec

end
-- ==== Proof.KIVal2.lean ====
import proofs.«150297_g64080912056811_cont_9to1c4b_125_48_alg».proof.Proof.KIReg2
import proofs.«150297_g64080912056811_cont_9to1c4b_125_48_alg».proof.Proof.Spec
import proofs.«150297_g64080912056811_cont_9to1c4b_125_48_alg».proof.Proof.LibRowsByCols

noncomputable section

open scoped BigOperators

namespace Cert.KernelIdeal.Hand

open Cert.KernelIdeal Cert.KernelIdeal.Gen Cert.Lib.RowsByCols
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem k2_pay1_apply (x0 : Vec Ideal S2000x512 .f32) (j : S2000x256.Idx) :
    k2_pay1 x0 j
      = Cert.Spec.gateK (x0 (ix2 (j 0) ⟨(j 1).val, by have := idx2_lt1 j; omega⟩))
        * Cert.Spec.softK (x0 (ix2 (j 0) ⟨256 + (j 1).val, by have := idx2_lt1 j; omega⟩)) := by
  have e2 : extractStridedSlice S2000x256 ![0, 0] x0 slices_S2000x512_o0_0_S2000x256 j
      = x0 (ix2 (j 0) ⟨(j 1).val, by have := idx2_lt1 j; omega⟩) :=
    extractStridedSlice_apply _ _ _ j _ (Fin.forall_fin_two.mpr ⟨(Nat.zero_add _).symm, (Nat.zero_add _).symm⟩)
  have e3 : extractStridedSlice S2000x256 ![0, 256] x0 slices_S2000x512_o0_256_S2000x256 j
      = x0 (ix2 (j 0) ⟨256 + (j 1).val, by have := idx2_lt1 j; omega⟩) :=
    extractStridedSlice_apply _ _ _ j _ (Fin.forall_fin_two.mpr ⟨(Nat.zero_add _).symm, rfl⟩)
  unfold k2_pay1
  simp only [shapeCast_self]
  unfold Cert.Spec.gateK Cert.Spec.softK Cert.Spec.c0 Cert.Spec.c1
  rw [← e2, ← e3]
  rfl

theorem block_index2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

theorem arr2_1 (c : Dev nD) :
    (dat2 (F := Ideal) V c).arrAt 1 cfg2.N = fun i => Cert.Spec.edgeActK (V c main_v32) (i 0) (i 1) :=
  (dat2 V c).arrAt_eq_of_cover 1 _ (fun t _ => by
    show (cfg2.win 1).cut (grid2.coords t) ((dat2 V c).after 1 t) = _
    rw [after2_1]
    unfold out2_1
    rw [View.canon_unit_zero zero2]
    simp only [View.ld_unit_zero (S := S2000x512) zero2]
    obtain ⟨e0, e1, e2, e3⟩ := block_index2 t
    funext j
    refine (k2_pay1_apply _ j).trans ?_
    show _ = Cert.Spec.gateK (V c main_v32 _) * Cert.Spec.softK (V c main_v32 _)
    have h0 := (win2_1.rect_emb_val t j 0).trans (same_block (e2.trans e0.symm))
    have h1 := (win2_1.rect_emb_val t j 1).trans (zero_block e3).symm
    exact congrArg₂ (· * ·)
      (congrArg _ (read_block main_v32 _ _ _ (Fin.forall_fin_two.mpr ⟨h0, h1.trans (zero_block e1)⟩)))
      (congrArg _ (read_block main_v32 _ _ _ (Fin.forall_fin_two.mpr ⟨h0, (congrArg (256 + ·) h1).trans (zero_block e1)⟩))))
    fun i => by
      have hi0 : (i 0).val < 160000 := (i 0).isLt
      have ht : (i 0).val / 2000 < cfg2.N := by rw [show cfg2.N = 80 from N_2]; omega
      obtain ⟨-, -, e2, e3⟩ := block_index2 ⟨_, ht⟩
      exact ⟨_, flush2_1 _, mem_block main_v33 i (Fin.forall_fin_two.mpr ⟨e2, e3.trans (Nat.div_eq_of_lt (i 1).isLt).symm⟩) (by decide)⟩

end Cert.KernelIdeal.Hand

end
-- ==== Proof.KIVal3.lean ====
import proofs.«150297_g64080912056811_cont_9to1c4b_125_48_alg».proof.Proof.KIReg3
import proofs.«150297_g64080912056811_cont_9to1c4b_125_48_alg».proof.Proof.Spec
import proofs.«150297_g64080912056811_cont_9to1c4b_125_48_alg».proof.Proof.LibRowsByCols
import Idealize.ShloMosaic.Lib.ValueLayout

noncomputable section

open scoped BigOperators

namespace Cert.KernelIdeal.Hand

open Cert.KernelIdeal Cert.KernelIdeal.Gen Cert.Lib.RowsByCols
open Idealize.ShloMosaic Idealize.ShloMosaic.TcCoe Idealize.ShloMosaic.ValueIdx
open Idealize.ShloMosaic.Pipeline (Dat Cfg Window)

theorem laneSum3 (v : FVec Ideal S2000x256 .f32) (j : Fin 256) :
    multiReduction .add [0] S256 v 0x00000000#32 reduces_S2000x256_S256 (.inl rfl) rfl (ix1 j) = ∑ r : Fin 2000, v (ix2 r j) :=
  (Ideal.multiReduction_add_single v 0x00000000#32 reduces_S2000x256_S256 (.inl rfl) rfl (ix1 j)).trans
    (Finset.sum_congr rfl fun r _ => congrArg v (Shape.idx_ext₂ rfl rfl))

theorem k3_pay1_row0 (x0 x1 : Vec Ideal S2000x256 .f32) (j : Fin 256) :
    k3_pay1 (F := Ideal) x0 x1 (ix2 (0 : Fin 2) j) = ∑ r : Fin 2000, (x0 (ix2 r j) + x1 (ix2 r j)) := by
  unfold k3_pay1
  dsimp only
  refine (concatenate_pair_apply_left (t := S2x256) (s₁ := S1x256) (s₂ := S1x256) (0 : Fin 2) _ _ concatenates_S1x256_S1x256_S2x256_d0 (ix2 (0 : Fin 2) j) rfl (ix2 (0 : Fin 1) j)
    (Fin.forall_fin_two.mpr ⟨rfl, rfl⟩)).trans ?_
  refine (shapeCast_a_1a_apply _ shapeCasts_S256_S1x256 (0 : Fin 1) j).trans ((laneSum3 _ j).trans (Finset.sum_congr rfl fun r _ => ?_))
  rw [shapeCast_self]
  rfl

theorem k3_pay1_row1 (x0 x1 : Vec Ideal S2000x256 .f32) (j : Fin 256) :
    k3_pay1 (F := Ideal) x0 x1 (ix2 (1 : Fin 2) j)
      = ∑ r : Fin 2000, (x0 (ix2 r j) + x1 (ix2 r j)) * (x0 (ix2 r j) + x1 (ix2 r j)) := by
  unfold k3_pay1
  dsimp only
  refine (concatenate_pair_apply_right (t := S2x256) (s₁ := S1x256) (s₂ := S1x256) (0 : Fin 2) _ _ concatenates_S1x256_S1x256_S2x256_d0 (ix2 (1 : Fin 2) j) rfl rfl (ix2 (0 : Fin 1) j)
    (Fin.forall_fin_two.mpr ⟨fun hb => absurd rfl hb, fun _ => rfl⟩) rfl).trans ?_
  refine (shapeCast_a_1a_apply _ shapeCasts_S256_S1x256 (0 : Fin 1) j).trans ((laneSum3 _ j).trans (Finset.sum_congr rfl fun r _ => ?_))
  rw [shapeCast_self]
  rfl

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ ∀ a, win3_2.index t a = 0 :=
  (by decide +kernel : ∀ t : Fin grid3.N, _)

variable (V : (c : Dev nD) → (b : Ref sig .tc) → Buf (Elt Ideal) ((c : Thread nD τ).loc b))

theorem row_lt3 (t : Fin cfg3.N) (r : Fin 2000) : 2000 * t.val + r.val < 10000 := by
  have hN : t.val < 5 := lt_of_lt_of_eq t.isLt (show cfg3.N = 5 from N_3)
  have := r.isLt; omega

theorem iblk3_0_apply (c : Dev nD) (t : Fin cfg3.N) (r : Fin 2000) (j : Fin 256) :
    iblk3 V c 0 t (ix2 r j) = V c main_v36 (ix2 ⟨2000 * t.val + r.val, row_lt3 t r⟩ j) :=
  read_block main_v36 _ _ _ (Fin.forall_fin_two.mpr ⟨(congrArg (· + r.val) (Nat.mul_comm _ _)).trans (same_block (idx_facts3 t).1.symm), zero_block (idx_facts3 t).2.1⟩)

theorem iblk3_1_apply (c : Dev nD) (t : Fin cfg3.N) (r : Fin 2000) (j : Fin 256) :
    iblk3 V c 1 t (ix2 r j) = V c main_arg0 (ix2 ⟨2000 * t.val + r.val, row_lt3 t r⟩ j) :=
  read_block main_arg0 _ _ _ (Fin.forall_fin_two.mpr ⟨(congrArg (· + r.val) (Nat.mul_comm _ _)).trans (same_block (idx_facts3 t).2.2.1.symm), zero_block (idx_facts3 t).2.2.2.1⟩)

/-- Row 0 adds up a column's entries, row 1 their squares. -/
def stat3 (cv : Cert.Spec.Mat 10000 256) (p : Fin 2) (j : Fin 256) : Fin 10000 → EReal :=
  fun n => if p.val = 0 then cv (ix2 n j) else cv (ix2 n j) * cv (ix2 n j)

/-- The sum over rows is taken block by block: the first `n + 1` block sums, added from the left. -/
def partSum3 (f : Fin 10000 → EReal) : (n : ℕ) → n < 5 → EReal
  | 0, h => Cert.Spec.blockSum f ⟨0, h⟩
  | n + 1, h => partSum3 f n (Nat.lt_of_succ_lt h) + Cert.Spec.blockSum f ⟨n + 1, h⟩

theorem k3_pay1_blk (c : Dev nD) (t : Fin cfg3.N) (p : Fin 2) (j : Fin 256) :
    k3_pay1 (F := Ideal) (iblk3 V c 0 t) (iblk3 V c 1 t) (ix2 p j)
      = Cert.Spec.blockSum (stat3 (Cert.Spec.addM (V c main_v36) (V c main_arg0)) p j) ⟨t.val, lt_of_lt_of_eq t.isLt (show cfg3.N = 5 from N_3)⟩ := by
  unfold Cert.Spec.blockSum stat3 Cert.Spec.addM
  match p with
  | ⟨0, _⟩ =>
    refine (k3_pay1_row0 _ _ j).trans (Finset.sum_congr rfl fun r _ => ?_)
    rw [iblk3_0_apply, iblk3_1_apply]; rfl
  | ⟨1, _⟩ =>
    refine (k3_pay1_row1 _ _ j).trans (Finset.sum_congr rfl fun r _ => ?_)
    rw [iblk3_0_apply, iblk3_1_apply]; rfl

theorem accAt3_apply (c : Dev nD) (p : Fin 2) (j : Fin 256) : ∀ (n : ℕ) (hn : n < cfg3.N),
    accAt3 (F := Ideal) V c n hn (ix2 p j)
      = partSum3 (stat3 (Cert.Spec.addM (V c main_v36) (V c main_arg0)) p j) n (lt_of_lt_of_eq hn (show cfg3.N = 5 from N_3))
  | 0, hn => by
    show k3_pay2 (F := Ideal) (iblk3 V c 0 ⟨0, hn⟩) (iblk3 V c 1 ⟨0, hn⟩) (ix2 p j) = _
    unfold k3_pay2; rw [shapeCast_self]
    exact k3_pay1_blk V c ⟨0, hn⟩ p j
  | n + 1, hn => by
    show k3_pay3 (F := Ideal) (iblk3 V c 0 ⟨n + 1, hn⟩) (iblk3 V c 1 ⟨n + 1, hn⟩) (accAt3 V c n (Nat.lt_of_succ_lt hn)) (ix2 p j) = _
    unfold k3_pay3; rw [shapeCast_self, addf_apply, accAt3_apply c p j n (Nat.lt_of_succ_lt hn), k3_pay1_blk V c ⟨n + 1, hn⟩ p j]
    rfl

theorem arr3_2 (c : Dev nD) :
    (dat3 (F := Ideal) V c).arrAt 2 cfg3.N
      = fun i => if (i 0).val = 0 then Cert.Spec.s1K (Cert.Spec.addM (V c main_v36) (V c main_arg0)) (i 1)
          else Cert.Spec.s2K (Cert.Spec.addM (V c main_v36) (V c main_arg0)) (i 1) :=
  (dat3 (F := Ideal) V c).arrAt_eq_of_cover 2 _ (fun t hf => by
    have h4 : t.val = 4 := by have := (flush3_2 t).mp hf; have := lt_of_lt_of_eq t.isLt (show cfg3.N = 5 from N_3); omega
    show (cfg3.win 2).cut (grid3.coords t) ((dat3 V c).after 2 t) = _
    rw [after3_2]
    funext y
    refine Eq.trans ?_ (read_block main_v37 _ y y fun a => zero_block ((idx_facts3 t).2.2.2.2 a)).symm
    obtain ⟨p, j, rfl⟩ : ∃ (p : Fin 2) (j : Fin 256), y = ix2 p j := ⟨y 0, y 1, eq_ix2 y⟩
    refine (accAt3_apply V c p j t.val t.isLt).trans ?_
    obtain ⟨tv, ht⟩ := t
    obtain rfl : tv = 4 := h4
    match p with
    | ⟨0, _⟩ => rfl
    | ⟨1, _⟩ => rfl)
    fun i => ⟨t3_4, (flush3_2 t3_4).mpr rfl, mem_block main_v37 i
      (fun a => ((idx_facts3 t3_4).2.2.2.2 a).trans (Nat.div_eq_of_lt (i a).isLt).symm) (by decide)⟩

end Cert.KernelIdeal.Hand

end
-- ==== Proof.KIVal4.lean ====
import proofs.«150297_g64080912056811_cont_9to1c4b_125_48_alg».proof.Proof.KIReg4
import proofs.«150297_g64080912056811_cont_9to1c4b_125_48_alg».proof.Proof.Spec
import proofs.«150297_g64080912056811_cont_9to1c4b_125_48_alg».proof.Proof.LibRowsByCols

noncomputable section

open scoped BigOperators

namespace Cert.KernelIdeal.Hand

open Cert.KernelIdeal Cert.KernelIdeal.Gen Cert.Lib.RowsByCols
open Idealize.ShloMosaic Idealize.ShloMosaic.TcCoe Idealize.ShloMosaic.ValueIdx
open Idealize.SL.Sem
open Idealize.ShloMosaic.Pipeline (Dat)

theorem inv_10000 : Named.named (F := Ideal) κ "inv_10000" (φ := .f32) 0x38D1B717#32 = Cert.Spec.invN :=
  IdealRules.named_const.ideal_named_scalar _ _ _ _ rfl

theorem bcast_row4 (x : S1x256.Idx → EReal) (j : S2000x256.Idx) :
    broadcastTo S2000x256 x broadcasts_S1x256_S2000x256 j = x (ix2 0 (j 1)) :=
  broadcastTo_apply x broadcasts_S1x256_S2000x256 j (ix2 0 (j 1)) (fun a => by
    match a with
    | ⟨0, _⟩ => rfl
    | ⟨1, _⟩ => rfl)

theorem exp_apply4 {s : Shape} {φ : FTy} (a : FVec Ideal s φ) (i : s.Idx) : exp a i = Ideal.exp (a i) := rfl
theorem rsqrt_apply4 {s : Shape} {φ : FTy} (a : FVec Ideal s φ) (i : s.Idx) : rsqrt a i = Ideal.rsqrt (a i) := rfl

/-- The input plus the SiLU of the normalised, scaled and shifted value, from the two summands, the column's two statistics, scale and shift. -/
def out4 (a x s1 s2 g b : EReal) : EReal :=
  x + ((((a + x) - s1 * Cert.Spec.invN)
      * Ideal.rsqrt ((s2 * Cert.Spec.invN - (s1 * Cert.Spec.invN) * (s1 * Cert.Spec.invN)) + Cert.Spec.cEps)) * g + b)
    * Cert.Spec.gateK ((((a + x) - s1 * Cert.Spec.invN)
      * Ideal.rsqrt ((s2 * Cert.Spec.invN - (s1 * Cert.Spec.invN) * (s1 * Cert.Spec.invN)) + Cert.Spec.cEps)) * g + b)

theorem k4_pay1_apply (v0 v1 : Vec Ideal S2000x256 .f32) (v4 v8 v21 v25 : Vec Ideal S1x256 .f32) (j : S2000x256.Idx) :
    k4_pay1 v0 v1 v4 v8 v21 v25 j
      = out4 (v1 j) (v0 j) (v4 (ix2 0 (j 1))) (v8 (ix2 0 (j 1))) (v21 (ix2 0 (j 1))) (v25 (ix2 0 (j 1))) := by
  unfold k4_pay1 out4
  simp only [shapeCast_self, addf_apply, subf_apply, mulf_apply, divf_apply, exp_apply4, rsqrt_apply4, broadcast_apply, bcast_row4, inv_10000]
  rfl

variable (V : (c : Dev nD) → (b : Ref sig .tc) → Buf (Elt Ideal) ((c : Thread nD τ).loc b))

theorem idx_facts4 : ∀ t : Fin cfg4.N, win4_0.index t (0 : Fin 2) = win4_5.index t (0 : Fin 2)
    ∧ win4_0.index t (1 : Fin 2) = win4_5.index t (1 : Fin 2)
    ∧ win4_1.index t (0 : Fin 2) = win4_5.index t (0 : Fin 2)
    ∧ win4_1.index t (1 : Fin 2) = win4_5.index t (1 : Fin 2)
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- A row of the statistics block, read at a column, is that row of the statistics array at the column. -/
theorem stat4 (c : Dev nD) (t : Fin cfg4.N) (p : Fin 2) {off : Fin 2 → Nat} {inb} (h0 : off 0 = p.val) (h1 : off 1 = 0)
    (y j' : Fin 256) (hj : j'.val = y.val) :
    View.ld (iblk4 V c 2 t) (Rect.unit (s := S2x256) off S1x256.size inb) (ix2 0 y) = (V c main_v37 : S2x256.Idx → EReal) (ix2 p j') := by
  obtain ⟨-, -, -, -, e4, e5, -⟩ := idx_facts4 t
  refine read_block main_v37 _ _ _ (Fin.forall_fin_two.mpr ⟨?_, ?_⟩)
  · show p.val = win4_2.index t (0 : Fin 2) * 2 + (off 0 + 1 * 0); omega
  · show j'.val = win4_2.index t (1 : Fin 2) * 256 + (off 1 + 1 * y.val); omega

theorem arr4_5 (c : Dev nD) :
    (dat4 (F := Ideal) V c).arrAt 5 cfg4.N = fun i => Cert.Spec.finalK (V c main_v36) (V c main_arg0) (V c main_v37) (V c main_v38) (V c main_v39) (i 0) (i 1) :=
  (dat4 (F := Ideal) V c).arrAt_eq_of_cover 5 _ (fun t _ => by
    show (cfg4.win 5).cut (grid4.coords t) ((dat4 (F := Ideal) V c).after 5 t) = _
    rw [after4_5]
    unfold out4_5
    rw [View.canon_unit_zero zero2]
    simp only [View.ld_unit_zero (S := S2000x256) zero2, View.ld_unit_zero (S := S1x256) zero2]
    obtain ⟨e0, e1, e2, e3, -, -, e6, e7, e8, e9, -, e11⟩ := idx_facts4 t
    funext j
    refine (k4_pay1_apply _ _ _ _ _ _ j).trans ?_
    show _ = out4 (V c main_v36 _) (V c main_arg0 _) (V c main_v37 _) (V c main_v37 _) (V c main_v38 _) (V c main_v39 _)
    have h0 := win4_5.rect_emb_val t j 0
    have h1 := win4_5.rect_emb_val t j 1
    have h1' := h1.trans (zero_block e11).symm
    exact congr (congr (congr (congr (congr (congrArg out4
      (read_block main_v36 _ _ _ (Fin.forall_fin_two.mpr ⟨h0.trans (same_block e0.symm), h1.trans (same_block e1.symm)⟩)))
      (read_block main_arg0 _ _ _ (Fin.forall_fin_two.mpr ⟨h0.trans (same_block e2.symm), h1.trans (same_block e3.symm)⟩)))
      (stat4 V c t 0 (off := ![0, 0]) rfl rfl _ _ h1')) (stat4 V c t 1 (off := ![1, 0]) rfl rfl _ _ h1'))
      (read_block main_v38 _ _ _ (Fin.forall_fin_two.mpr ⟨zero_block e6, h1'.trans (zero_block e7)⟩)))
      (read_block main_v39 _ _ _ (Fin.forall_fin_two.mpr ⟨zero_block e8, h1'.trans (zero_block e9)⟩)))
    fun i => by
      have hi0 : (i 0).val < 10000 := (i 0).isLt
      have ht : (i 0).val / 2000 < cfg4.N := by rw [show cfg4.N = 5 from N_4]; omega
      obtain ⟨-, -, -, -, -, -, -, -, -, -, e0, e1⟩ := idx_facts4 ⟨_, ht⟩
      exact ⟨_, flush4_5 _, mem_block main_v40 i (Fin.forall_fin_two.mpr ⟨e0, e1.trans (Nat.div_eq_of_lt (i 1).isLt).symm⟩) (by decide)⟩

end Cert.KernelIdeal.Hand

end
-- ==== Proof.LibRowGather.lean ====
import Idealize.ShloMosaic.Lib.ValueIdx

noncomputable section

namespace Cert.Lib.RowGather

open Idealize.ShloMosaic Idealize.ShloMosaic.ValueIdx

private theorem one_not_mem_zero : (1 : Fin 2) ∉ [(0 : Fin 2)] := by decide

def rowAt {N R w : Nat} (hN : 0 < N) (idx : IVec ⟨2, ![R, 1]⟩ w) (e : Fin R) : Fin N :=
  ⟨min (idx (ix2 e ⟨0, Nat.one_pos⟩)).toInt.toNat (N - 1), by omega⟩

abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Two records of dimension numbers with equal fields are equal, so the entry is computed for `rowDims`: on axis 0 the clamped start index, on axis 1 the result's column. -/
theorem gather_rows_apply {α : Type} {N C R w : Nat} (hN : 0 < N)
    (dd : GatherDims ⟨2, ![N, C]⟩ ⟨2, ![R, 1]⟩ ⟨2, ![R, C]⟩)
    (h1 : dd.offsetDims = [1]) (h2 : dd.collapsedSliceDims = [0]) (h3 : dd.operandBatchingDims = [])
    (h4 : dd.startIndicesBatchingDims = []) (h5 : dd.startIndexMap = [0]) (h6 : dd.indexVectorDim = 1)
    (h7 : dd.sliceSizes = ![1, C])
    (x : (⟨2, ![N, C]⟩ : Shape).Idx → α) (idx : IVec ⟨2, ![R, 1]⟩ w) (e : Fin R) (c : Fin C) :
    Host.gather dd x idx (ix2 e c) = x (ix2 (rowAt hN idx e) c) := by
  obtain ⟨od, cd, ob, sb, sm, iv, ss, wf⟩ := dd
  simp only at h1 h2 h3 h4 h5 h6 h7
  subst h1 h2 h3 h4 h5 h6 h7
  show Host.gather (rowDims N C R wf) x idx (ix2 e c) = _
  unfold Host.gather
  congr 1
  funext a
  refine Fin.ext ?_
  match a with
  | ⟨0, _⟩ =>
    show (rowDims N C R wf).start (ix2 e c) idx 0 + (rowDims N C R wf).batchCoord (ix2 e c) 0
      + (rowDims N C R wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e c) ⟨List.idxOf (0 : Fin 2) (rowDims N C R wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowDims N C R wf).start (ix2 e c) idx 1 + (rowDims N C R wf).batchCoord (ix2 e c) 1
      + (rowDims N C R wf).offCoord (ix2 e c) 1 = _
    have hk : (1 : Fin 2) ∈ (rowDims N C R wf).sKept :=
      (GatherDims.mem_sKept _ _).mpr ⟨one_not_mem_zero, List.not_mem_nil⟩
    rw [GatherDims.batchCoord_eq_zero _ _ _ List.not_mem_nil]
    unfold GatherDims.start GatherDims.offCoord
    rw [dif_neg (show (1 : Fin 2) ∉ (rowDims N C R wf).startIndexMap from one_not_mem_zero), dif_pos hk]
    simp only [Nat.add_zero, Nat.zero_add]
    rfl

end Cert.Lib.RowGather

end
-- ==== Proof.KIValue.lean ====
import proofs.«150297_g64080912056811_cont_9to1c4b_125_48_alg».proof.Proof.KIWalk
import proofs.«150297_g64080912056811_cont_9to1c4b_125_48_alg».proof.Proof.KIVal0
import proofs.«150297_g64080912056811_cont_9to1c4b_125_48_alg».proof.Proof.KIVal1
import proofs.«150297_g64080912056811_cont_9to1c4b_125_48_alg».proof.Proof.KIVal2
import proofs.«150297_g64080912056811_cont_9to1c4b_125_48_alg».proof.Proof.KIVal3
import proofs.«150297_g64080912056811_cont_9to1c4b_125_48_alg».proof.Proof.KIVal4
import proofs.«150297_g64080912056811_cont_9to1c4b_125_48_alg».proof.Proof.LibRowGather

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

section Layout
variable {α : Type}

theorem cols_left {r a b n : Nat} (X : (⟨2, ![r, a]⟩ : Shape).Idx → α) (Y : (⟨2, ![r, b]⟩ : Shape).Idx → α)
    (h : Shape.Concatenates [⟨2, ![r, a]⟩, ⟨2, ![r, b]⟩] ⟨2, ![r, n]⟩ (1 : Fin 2)) (i : Fin r) (j : Fin a) (hj : j.val < n) :
    concatenate ⟨2, ![r, n]⟩ (1 : Fin 2) [⟨⟨2, ![r, a]⟩, X⟩, ⟨⟨2, ![r, b]⟩, Y⟩] h (ix2 i ⟨j.val, hj⟩) = X (ix2 i j) :=
  concatenate_pair_apply_left (t := ⟨2, ![r, n]⟩) (s₁ := ⟨2, ![r, a]⟩) (s₂ := ⟨2, ![r, b]⟩) (1 : Fin 2) X Y h (ix2 i ⟨j.val, hj⟩) rfl (ix2 i j)
    (fun b => by match b with | ⟨0, _⟩ => rfl | ⟨1, _⟩ => rfl)

theorem cols_right {r a b n : Nat} (X : (⟨2, ![r, a]⟩ : Shape).Idx → α) (Y : (⟨2, ![r, b]⟩ : Shape).Idx → α)
    (h : Shape.Concatenates [⟨2, ![r, a]⟩, ⟨2, ![r, b]⟩] ⟨2, ![r, n]⟩ (1 : Fin 2)) (i : Fin r) (j : Fin b) (hj : a + j.val < n) :
    concatenate ⟨2, ![r, n]⟩ (1 : Fin 2) [⟨⟨2, ![r, a]⟩, X⟩, ⟨⟨2, ![r, b]⟩, Y⟩] h (ix2 i ⟨a + j.val, hj⟩) = Y (ix2 i j) :=
  concatenate_pair_apply_right (t := ⟨2, ![r, n]⟩) (s₁ := ⟨2, ![r, a]⟩) (s₂ := ⟨2, ![r, b]⟩) (1 : Fin 2) X Y h (ix2 i ⟨a + j.val, hj⟩) rfl rfl (ix2 i j)
    (fun b hb => by match b with | ⟨0, _⟩ => rfl | ⟨1, _⟩ => exact absurd rfl hb)
    (by show j.val + a = a + j.val; omega)

end Layout

theorem finalK_eq_outK (agg x : Cert.Spec.Mat 10000 256) (st : Cert.Spec.Mat 2 256) (g b : Cert.Spec.Mat 1 256)
    (gam bet : Cert.Spec.Vect 256)
    (h0 : ∀ j, st (ix2 0 j) = Cert.Spec.s1K (Cert.Spec.addM agg x) j)
    (h1 : ∀ j, st (ix2 1 j) = Cert.Spec.s2K (Cert.Spec.addM agg x) j)
    (hg : ∀ j, g (ix2 0 j) = gam (ix1 j)) (hb : ∀ j, b (ix2 0 j) = bet (ix1 j)) (n : Fin 10000) (j : Fin 256) :
    Cert.Spec.finalK agg x st g b n j = Cert.Spec.outK (Cert.Spec.addM agg x) x gam bet n j := by
  unfold Cert.Spec.finalK Cert.Spec.outK Cert.Spec.normK Cert.Spec.rstdK Cert.Spec.varK Cert.Spec.meanK
  rw [h0, h1, hg, hb]
  rfl

section Value
variable (m : (ℓ : Loc nD τ sig) → Buf (Elt Ideal) ℓ) (ρ : Dev nD → PrngReg) (c : Dev nD)

set_option quotPrecheck false
local notation "𝐀0" => m ((c : Thread nD τ).loc main_arg0)
local notation "𝐀1" => m ((c : Thread nD τ).loc main_arg1)
local notation "𝐀2" => m ((c : Thread nD τ).loc main_arg2)
local notation "𝐀3" => m ((c : Thread nD τ).loc main_arg3)
local notation "𝐀4" => m ((c : Thread nD τ).loc main_arg4)
local notation "𝐀5" => m ((c : Thread nD τ).loc main_arg5)
local notation "𝐀6" => m ((c : Thread nD τ).loc main_arg6)
local notation "𝐀7" => m ((c : Thread nD τ).loc main_arg7)
local notation "𝐀8" => m ((c : Thread nD τ).loc main_arg8)

abbrev dstRow : Fin 160000 → Fin 10000 := Cert.Lib.RowGather.rowAt (by decide) (kNormIdx (kDst 𝐀1))
abbrev srcRow : Fin 160000 → Fin 10000 := Cert.Lib.RowGather.rowAt (by decide) (kNormIdx (kSrc 𝐀1))

/-- A column of the pre-activations: the three projections add up to the specification's, given where the column reads the weights and the bias. -/
theorem pre_of (W : Cert.Spec.Mat 528 256) (b : Cert.Spec.Vect 256) (e : Fin 160000) (q : Fin 512) (j : Fin 256)
    (h6 : ∀ k : Fin 256, (V1 m ρ c main_v6 : S256x512.Idx → EReal) (ix2 k q) = W (ix2 ⟨k.val, by omega⟩ j))
    (h9 : ∀ k : Fin 256, (V1 m ρ c main_v9 : S256x512.Idx → EReal) (ix2 k q) = W (ix2 ⟨256 + k.val, by omega⟩ j))
    (h12 : ∀ k : Fin 16, (V2 m ρ c main_v12 : S16x512.Idx → EReal) (ix2 k q) = W (ix2 ⟨512 + k.val, by omega⟩ j))
    (h14 : (V1 m ρ c main_v14 : S1x512.Idx → EReal) (ix2 0 q) = b (ix1 j)) :
    (V4 m ρ c main_v32 : S160000x512.Idx → EReal) (ix2 e q)
      = Cert.Spec.preK 𝐀0 𝐀2 (dstRow m c) (srcRow m c) W b e j := by
  refine (congrFun (walk_V4_v32 m ρ c) _).trans ?_
  unfold Cert.Spec.preK
  refine congrArg₂ (· + ·) (congrArg₂ (· + ·) ?_ ?_) ?_
  · refine (Cert.Lib.RowGather.gather_rows_apply (by decide) _ rfl rfl rfl rfl rfl rfl rfl _ _ e _).trans ?_
    refine (congrFun (arr0_4 (V1 m ρ) c) _).trans ?_
    rw [walk_V1_arg0]
    exact congrArg₂ (· + ·) (Finset.sum_congr rfl fun k _ => congrArg₂ (· * ·) rfl (h6 k)) h14
  · refine (Cert.Lib.RowGather.gather_rows_apply (by decide) _ rfl rfl rfl rfl rfl rfl rfl _ _ e _).trans ?_
    refine (congrFun (arr0_5 (V1 m ρ) c) _).trans ?_
    rw [walk_V1_arg0]
    show (_ : EReal) = _
    exact Finset.sum_congr rfl fun k _ => congrArg₂ (· * ·) rfl (h9 k)
  · refine (congrFun (arr1_2 (V2 m ρ) c) _).trans ?_
    rw [walk_V2_arg2]
    show (_ : EReal) = _
    exact Finset.sum_congr rfl fun k _ => congrArg₂ (· * ·) rfl (h12 k)

theorem v32_left (e : Fin 160000) (j : Fin 256) (h : j.val < 512) :
    (V4 m ρ c main_v32 : S160000x512.Idx → EReal) (ix2 e ⟨j.val, h⟩)
      = Cert.Spec.preK 𝐀0 𝐀2 (dstRow m c) (srcRow m c) 𝐀3 𝐀4 e j :=
  pre_of m ρ c 𝐀3 𝐀4 e _ j
    (fun k => (congrFun (walk_V1_v6 m ρ c) _).trans ((cols_left _ _ _ k j h).trans (slice2_axis0_apply 0 _ _ k j _ (Nat.zero_add _).symm)))
    (fun k => (congrFun (walk_V1_v9 m ρ c) _).trans ((cols_left _ _ _ k j h).trans (slice2_axis0_apply 256 _ _ k j _ rfl)))
    (fun k => (congrFun (walk_V2_v12 m ρ c) _).trans ((cols_left _ _ _ k j h).trans (slice2_axis0_apply 512 _ _ k j _ rfl)))
    ((congrFun (walk_V1_v14 m ρ c) _).trans ((shapeCast_a_1a_apply _ _ 0 _).trans (concatenate_pair_apply_left (t := ⟨1, ![512]⟩) (s₁ := ⟨1, ![256]⟩) (s₂ := ⟨1, ![256]⟩) (0 : Fin 1) _ _ _ (ix1 ⟨j.val, h⟩) rfl (ix1 j) (fun b => by match b with | ⟨0, _⟩ => rfl))))

theorem v32_right (e : Fin 160000) (j : Fin 256) (h : 256 + j.val < 512) :
    (V4 m ρ c main_v32 : S160000x512.Idx → EReal) (ix2 e ⟨256 + j.val, h⟩)
      = Cert.Spec.preK 𝐀0 𝐀2 (dstRow m c) (srcRow m c) 𝐀5 𝐀6 e j :=
  pre_of m ρ c 𝐀5 𝐀6 e _ j
    (fun k => (congrFun (walk_V1_v6 m ρ c) _).trans ((cols_right _ _ _ k j h).trans (slice2_axis0_apply 0 _ _ k j _ (Nat.zero_add _).symm)))
    (fun k => (congrFun (walk_V1_v9 m ρ c) _).trans ((cols_right _ _ _ k j h).trans (slice2_axis0_apply 256 _ _ k j _ rfl)))
    (fun k => (congrFun (walk_V2_v12 m ρ c) _).trans ((cols_right _ _ _ k j h).trans (slice2_axis0_apply 512 _ _ k j _ rfl)))
    ((congrFun (walk_V1_v14 m ρ c) _).trans ((shapeCast_a_1a_apply _ _ 0 _).trans (concatenate_pair_apply_right (t := ⟨1, ![512]⟩) (s₁ := ⟨1, ![256]⟩) (s₂ := ⟨1, ![256]⟩) (0 : Fin 1) _ _ _ (ix1 ⟨256 + j.val, h⟩) rfl rfl (ix1 j) (fun b hb => by match b with | ⟨0, _⟩ => exact absurd rfl hb) (Nat.add_comm _ _))))

abbrev msgArr : S160000x256.Idx → EReal := fun e =>
  Cert.Spec.msgK 𝐀0 𝐀2 (dstRow m c) (srcRow m c) 𝐀3 𝐀4 𝐀5 𝐀6 ⟨(e 0).val, idx2_lt0 e⟩ ⟨(e 1).val, idx2_lt1 e⟩

theorem msgs_eq : (dat2 (V4 m ρ) c).arrAt 1 cfg2.N = msgArr m c := by
  refine (arr2_1 (V4 m ρ) c).trans (funext fun i => ?_)
  exact congrArg₂ (· * ·) (congrArg Cert.Spec.gateK (v32_left m ρ c _ _ _)) (congrArg Cert.Spec.softK (v32_right m ρ c _ _ _))

abbrev aggArr : S10000x256.Idx → EReal :=
  Ideal.hostScatterAdd scatter_S10000x256_S160000x1_S160000x256_1_0_0_1 (fun _ => Cert.Spec.c0)
    (broadcastInDim S160000x1 ![0] bcast_S160000_S160000x1_0 (kDst 𝐀1)) (msgArr m c)

theorem v36_eq : V6 m ρ c main_v36 = aggArr m c := by
  refine (walk_V6_v36 m ρ c).trans ?_
  rw [msgs_eq]
  rfl

theorem v37_row0 (j : Fin 256) :
    (V8 m ρ c main_v37 : S2x256.Idx → EReal) (ix2 0 j) = Cert.Spec.s1K (Cert.Spec.addM (aggArr m c) 𝐀0) j := by
  refine (congrFun (walk_V8_v37 m ρ c) _).trans ?_
  refine (congrFun (arr3_2 (V6 m ρ) c) _).trans ?_
  rw [v36_eq, walk_V6_arg0]
  exact if_pos rfl

theorem v37_row1 (j : Fin 256) :
    (V8 m ρ c main_v37 : S2x256.Idx → EReal) (ix2 1 j) = Cert.Spec.s2K (Cert.Spec.addM (aggArr m c) 𝐀0) j := by
  refine (congrFun (walk_V8_v37 m ρ c) _).trans ?_
  refine (congrFun (arr3_2 (V6 m ρ) c) _).trans ?_
  rw [v36_eq, walk_V6_arg0]
  exact if_neg (show ¬ (1 : Nat) = 0 by decide)

theorem kernel_value :
    U9 (F := Ideal) m ρ c (Proc.devRef .tc main_v40) = fun i =>
      Cert.Spec.outK
        (Cert.Spec.addM
          (Ideal.hostScatterAdd scatter_S10000x256_S160000x1_S160000x256_1_0_0_1 (fun _ => Cert.Spec.c0)
            (broadcastInDim S160000x1 ![0] bcast_S160000_S160000x1_0 (kDst 𝐀1))
            (fun e => Cert.Spec.msgK 𝐀0 𝐀2 (Cert.Lib.RowGather.rowAt (by decide) (kNormIdx (kDst 𝐀1)))
              (Cert.Lib.RowGather.rowAt (by decide) (kNormIdx (kSrc 𝐀1))) 𝐀3 𝐀4 𝐀5 𝐀6
              ⟨(e 0).val, idx2_lt0 e⟩ ⟨(e 1).val, idx2_lt1 e⟩))
          𝐀0)
        𝐀0 𝐀7 𝐀8 ⟨(i 0).val, idx2_lt0 i⟩ ⟨(i 1).val, idx2_lt1 i⟩ := by
  refine (walk_U9_v40 m ρ c).trans ?_
  refine (arr4_5 (V8 m ρ) c).trans (funext fun i => ?_)
  rw [walk_V8_v36, v36_eq, walk_V8_arg0, walk_V8_v38, walk_V8_v39]
  exact finalK_eq_outK (aggArr m c) 𝐀0 (V8 m ρ c main_v37) _ _ 𝐀7 𝐀8 (v37_row0 m ρ c) (v37_row1 m ρ c)
    (fun j => shapeCast_a_1a_apply _ _ 0 j) (fun j => shapeCast_a_1a_apply _ _ 0 j) _ _

end Value

end Cert.KernelIdeal.Hand

end
-- ==== Proof.LibNary3.lean ====
import Idealize.ShloMosaic.Lib.StableHlo.Run

namespace Idealize.ShloMosaic.StableHlo

variable {τ : Topo} {sig : RefSig} {Val : EltTy → Type} {x a b y : Ref sig .tc}

/-- Over a literal family of three references each operand is read at its own reference, not under a bound index. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.RefTerms.lean ====
import proofs.«150297_g64080912056811_cont_9to1c4b_125_48_alg».proof.Proof.Gen.ReferenceIdeal

noncomputable section

namespace Cert.ReferenceIdeal.RefValue

open Idealize.ShloMosaic Idealize.SL.Sem
open Cert.ReferenceIdeal Cert.ReferenceIdeal.Facts₀

variable {F : FTy → Type} [FloatOps F] [Cert.ReferenceIdeal.Facts]

def refSrc (ei : IVec S2x160000 32) : IVec S160000 32 :=
  shapeCast S160000 (extractStridedSlice S1x160000 ![0, 0] ei slices_S2x160000_S1x160000_0_0)
    shapeCasts_S1x160000_S160000

def refDst (ei : IVec S2x160000 32) : IVec S160000 32 :=
  shapeCast S160000 (extractStridedSlice S1x160000 ![1, 0] ei slices_S2x160000_S1x160000_1_0)
    shapeCasts_S1x160000_S160000

def refNormIdx (v : IVec S160000 32) : IVec S160000x1 32 :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 10000#32)))
      v)

def refGather (x : FVec F S10000x256 .f32) (v : IVec S160000 32) : FVec F S160000x256 .f32 :=
  Host.gather gather_S10000x256_S160000x1_S160000x256_1_0_n_n_0_1_1256 x (refNormIdx v)

def refCat3 (g h : FVec F S160000x256 .f32) (ea : FVec F S160000x16 .f32) : FVec F S160000x528 .f32 :=
  concatenate S160000x528 1 [⟨S160000x256, g⟩, ⟨S160000x256, h⟩, ⟨S160000x16, ea⟩]
    concatenates_S160000x256_S160000x256_S160000x16_S160000x528_d1

def refCat (x : FVec F S10000x256 .f32) (ei : IVec S2x160000 32) (ea : FVec F S160000x16 .f32) :
    FVec F S160000x528 .f32 :=
  refCat3 (refGather x (refDst ei)) (refGather x (refSrc ei)) ea

def refPre (z : FVec F S160000x528 .f32) (W : FVec F S528x256 .f32) (b : FVec F S256 .f32) :
    FVec F S160000x256 .f32 :=
  addf (Host.dotGeneral dot_S160000x528_S528x256_S160000x256_1_0_0_1_n_n none z W)
    (broadcastInDim S160000x256 ![0, 1] bcast_S1x256_S160000x256_0_1
      (broadcastInDim S1x256 ![1] bcast_S256_S1x256_1 b))

def refFill (c : BitVec 32) : FVec F S160000x256 .f32 :=
  broadcastInDim S160000x256 ![] bcast_S_S160000x256 (constant S_ .f32 c)

def refGate (t : FVec F S160000x256 .f32) : FVec F S160000x256 .f32 :=
  Host.divf (refFill 0x3F800000#32) (addf (refFill 0x3F800000#32) (Host.exp (Host.negf t)))

def refSoftplus (t : FVec F S160000x256 .f32) : FVec F S160000x256 .f32 :=
  select (cmpf .une (subf t (refFill 0#32)) (subf t (refFill 0#32))) (addf t (refFill 0#32))
    (addf (maximumf t (refFill 0#32))
      (Host.log1p (Host.exp (Host.negf (Host.absf (subf t (refFill 0#32)))))))

def refMsgOf (z : FVec F S160000x528 .f32) (Wf : FVec F S528x256 .f32) (bf : FVec F S256 .f32) (Ws : FVec F S528x256 .f32)
    (bs : FVec F S256 .f32) : FVec F S160000x256 .f32 :=
  mulf (refGate (refPre z Wf bf)) (refSoftplus (refPre z Ws bs))

def refMsg (x : FVec F S10000x256 .f32) (ei : IVec S2x160000 32) (ea : FVec F S160000x16 .f32)
    (Wf : FVec F S528x256 .f32) (bf : FVec F S256 .f32) (Ws : FVec F S528x256 .f32) (bs : FVec F S256 .f32) :
    FVec F S160000x256 .f32 :=
  refMsgOf (refCat x ei ea) Wf bf Ws bs

def refConv (x : FVec F S10000x256 .f32) (dst : IVec S160000 32) (msg : FVec F S160000x256 .f32) :
    FVec F S10000x256 .f32 :=
  addf
    (Host.scatterAdd scatter_S10000x256_S160000x1_S160000x256_1_0_0_1
      (broadcastInDim S10000x256 ![] bcast_S_S10000x256 (constant S_ .f32 0x00000000#32))
      (broadcastInDim S160000x1 ![0] bcast_S160000_S160000x1_0 dst)
      msg)
    x

def refRows (v : FVec F S256 .f32) : FVec F S10000x256 .f32 :=
  broadcastInDim S10000x256 ![0, 1] bcast_S1x256_S10000x256_0_1 (broadcastInDim S1x256 ![1] bcast_S256_S1x256_1 v)

def refMean (cv : FVec F S10000x256 .f32) : FVec F S256 .f32 :=
  Host.divf
    (Host.reduceAdd cv (constant S_ .f32 0x00000000#32) reducesTo_S10000x256_S256_d0 h_S_)
    (broadcastInDim S256 ![] bcast_S_S256 (constant S_ .f32 0x461C4000#32))

def refDen : FVec F S_ .f32 :=
  subf (constant S_ .f32 0x461C4000#32) (sitofp .f32 (constantI S_ 32 0#32))

def refDev (cv : FVec F S10000x256 .f32) : FVec F S10000x256 .f32 :=
  subf cv (broadcastInDim S10000x256 ![0, 1] bcast_S1x256_S10000x256_0_1
    (Host.divf
      (broadcastInDim S1x256 ![1] bcast_S256_S1x256_1
        (Host.reduceAdd cv (constant S_ .f32 0x00000000#32) reducesTo_S10000x256_S256_d0 h_S_))
      (broadcastInDim S1x256 ![] bcast_S_S1x256 (constant S_ .f32 0x461C4000#32))))

def refVar (cv : FVec F S10000x256 .f32) : FVec F S256 .f32 :=
  select (broadcastInDim S256 ![] bcast_S_S256 (cmpf .ogt (refDen (F := F)) (constant S_ .f32 0x00000000#32)))
    (Host.divf
      (Host.reduceAdd
        (mulf (refDev cv) (refDev cv))
        (constant S_ .f32 0x00000000#32) reducesTo_S10000x256_S256_d0 h_S_)
      (broadcastInDim S256 ![] bcast_S_S256 refDen))
    (broadcastInDim S256 ![] bcast_S_S256 (id (constant S_ .f32 0x7FC00000#32)))

def refStd (cv : FVec F S10000x256 .f32) : FVec F S256 .f32 :=
  Host.sqrt (addf (refVar cv) (broadcastInDim S256 ![] bcast_S_S256 (constant S_ .f32 0x3727C5AC#32)))

def refScale (d : FVec F S10000x256 .f32) (s gam bet : FVec F S256 .f32) : FVec F S10000x256 .f32 :=
  addf (mulf (Host.divf d (refRows s)) (refRows gam)) (refRows bet)

def refNorm (cv : FVec F S10000x256 .f32) (gam bet : FVec F S256 .f32) : FVec F S10000x256 .f32 :=
  refScale (subf cv (refRows (refMean cv))) (refStd cv) gam bet

def refSilu (t : FVec F S10000x256 .f32) : FVec F S10000x256 .f32 :=
  mulf t
    (Host.divf
      (broadcastInDim S10000x256 ![] bcast_S_S10000x256 (constant S_ .f32 0x3F800000#32))
      (addf (broadcastInDim S10000x256 ![] bcast_S_S10000x256 (constant S_ .f32 0x3F800000#32))
        (Host.exp (Host.negf t))))

def refOut (cv x : FVec F S10000x256 .f32) (gam bet : FVec F S256 .f32) : FVec F S10000x256 .f32 :=
  addf x (refSilu (refNorm cv gam bet))

end Cert.ReferenceIdeal.RefValue

end
-- ==== Proof.RefRun.lean ====
import proofs.«150297_g64080912056811_cont_9to1c4b_125_48_alg».proof.Proof.LibNary3
import proofs.«150297_g64080912056811_cont_9to1c4b_125_48_alg».proof.Proof.RefTerms
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.RefValue

variable {F : FTy → Type} [FloatOps F]

abbrev opsA : List (HloOp τ sig (Elt F)) :=
  [ unary main_arg1 main_v0 (extractStridedSlice S1x160000 ![0, 0] · slices_S2x160000_S1x160000_0_0),
    reshape main_v0 main_v1 rfl shapeCasts_S1x160000_S160000,
    unary main_arg1 main_v2 (extractStridedSlice S1x160000 ![1, 0] · slices_S2x160000_S1x160000_1_0),
    reshape main_v2 main_v3 rfl shapeCasts_S1x160000_S160000,
    nullary main_c (constantI S_ 32 0#32),
    unary main_c main_v4 (broadcastInDim S160000 ![] bcast_S_S160000),
    binary main_v3 main_v4 main_v5 (cmpi .slt),
    nullary main_c_0 (constantI S_ 32 10000#32),
    unary main_c_0 main_v6 (broadcastInDim S160000 ![] bcast_S_S160000),
    binary main_v3 main_v6 main_v7 addi,
    ternary main_v5 main_v7 main_v3 main_v8 select,
    unary main_v8 main_v9 (broadcastInDim S160000x1 ![0] bcast_S160000_S160000x1_0),
    binary main_arg0 main_v9 main_v10 (Host.gather gather_S10000x256_S160000x1_S160000x256_1_0_n_n_0_1_1256),
    nullary main_c_1 (constantI S_ 32 0#32),
    unary main_c_1 main_v11 (broadcastInDim S160000 ![] bcast_S_S160000),
    binary main_v1 main_v11 main_v12 (cmpi .slt),
    nullary main_c_2 (constantI S_ 32 10000#32),
    unary main_c_2 main_v13 (broadcastInDim S160000 ![] bcast_S_S160000),
    binary main_v1 main_v13 main_v14 addi,
    ternary main_v12 main_v14 main_v1 main_v15 select,
    unary main_v15 main_v16 (broadcastInDim S160000x1 ![0] bcast_S160000_S160000x1_0),
    binary main_arg0 main_v16 main_v17 (Host.gather gather_S10000x256_S160000x1_S160000x256_1_0_n_n_0_1_1256) ]

abbrev opsB : List (HloOp τ sig (Elt F)) :=
  [ nary ![main_v10, main_v17, main_arg2] main_v18 (fun u => concatenate S160000x528 1 [⟨S160000x256, u 0⟩, ⟨S160000x256, u 1⟩, ⟨S160000x16, u 2⟩] concatenates_S160000x256_S160000x256_S160000x16_S160000x528_d1),
    binary main_v18 main_arg3 main_v19 (Host.dotGeneral dot_S160000x528_S528x256_S160000x256_1_0_0_1_n_n none),
    unary main_arg4 main_v20 (broadcastInDim S1x256 ![1] bcast_S256_S1x256_1),
    unary main_v20 main_v21 (broadcastInDim S160000x256 ![0, 1] bcast_S1x256_S160000x256_0_1),
    binary main_v19 main_v21 main_v22 addf,
    unary main_v22 main_v23 Host.negf,
    unary main_v23 main_v24 Host.exp,
    nullary main_cst (constant S_ .f32 0x3F800000#32),
    unary main_cst main_v25 (broadcastInDim S160000x256 ![] bcast_S_S160000x256),
    binary main_v25 main_v24 main_v26 addf,
    nullary main_cst_3 (constant S_ .f32 0x3F800000#32),
    unary main_cst_3 main_v27 (broadcastInDim S160000x256 ![] bcast_S_S160000x256),
    binary main_v27 main_v26 main_v28 Host.divf,
    binary main_v18 main_arg5 main_v29 (Host.dotGeneral dot_S160000x528_S528x256_S160000x256_1_0_0_1_n_n none),
    unary main_arg6 main_v30 (broadcastInDim S1x256 ![1] bcast_S256_S1x256_1),
    unary main_v30 main_v31 (broadcastInDim S160000x256 ![0, 1] bcast_S1x256_S160000x256_0_1),
    binary main_v29 main_v31 main_v32 addf,
    TRef.nullary main_call0.cst (constant S_ .f32 0x00000000#32),
    TRef.unary main_call0.cst main_call0.v0 (broadcastInDim S160000x256 ![] bcast_S_S160000x256),
    TRef.binary (.of main_v32) main_call0.v0 main_call0.v1 maximumf,
    TRef.unary main_call0.cst main_call0.v2 (broadcastInDim S160000x256 ![] bcast_S_S160000x256),
    TRef.binary (.of main_v32) main_call0.v2 main_call0.v3 subf,
    TRef.binary main_call0.v3 main_call0.v3 main_call0.v4 (cmpf .une),
    TRef.unary main_call0.cst main_call0.v5 (broadcastInDim S160000x256 ![] bcast_S_S160000x256),
    TRef.binary (.of main_v32) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    binary main_v28 main_v33 main_v34 mulf,
    nullary main_cst_4 (constant S_ .f32 0x00000000#32),
    unary main_cst_4 main_v35 (broadcastInDim S10000x256 ![] bcast_S_S10000x256),
    unary main_v3 main_v36 (broadcastInDim S160000x1 ![0] bcast_S160000_S160000x1_0),
    ternary main_v35 main_v36 main_v34 main_v37 (Host.scatterAdd scatter_S10000x256_S160000x1_S160000x256_1_0_0_1),
    binary main_v37 main_arg0 main_v38 addf ]

abbrev opsC : List (HloOp τ sig (Elt F)) :=
  [ nullary main_cst_5 (constant S_ .f32 0x00000000#32),
    binary main_v38 main_cst_5 main_v39 (fun x v => Host.reduceAdd x v reducesTo_S10000x256_S256_d0 h_S_),
    nullary main_cst_6 (constant S_ .f32 0x461C4000#32),
    unary main_cst_6 main_v40 (broadcastInDim S256 ![] bcast_S_S256),
    binary main_v39 main_v40 main_v41 Host.divf,
    nullary main_c_7 (constantI S_ 32 0#32),
    TRef.nullary main_call1.cst (constant S_ .f32 0x00000000#32),
    TRef.binary (.of main_v38) main_call1.cst main_call1.v0 (fun x v => Host.reduceAdd x v reducesTo_S10000x256_S256_d0 h_S_),
    TRef.unary main_call1.v0 main_call1.v1 (broadcastInDim S1x256 ![1] bcast_S256_S1x256_1),
    TRef.nullary main_call1.cst_0 (constant S_ .f32 0x461C4000#32),
    TRef.unary main_call1.cst_0 main_call1.v2 (broadcastInDim S1x256 ![] bcast_S_S1x256),
    TRef.binary main_call1.v1 main_call1.v2 main_call1.v3 Host.divf,
    TRef.unary main_call1.v3 main_call1.v4 (broadcastInDim S10000x256 ![0, 1] bcast_S1x256_S10000x256_0_1),
    TRef.binary (.of main_v38) main_call1.v4 main_call1.v5 subf,
    TRef.binary main_call1.v5 main_call1.v5 main_call1.v6 mulf,
    TRef.unary (.of main_c_7) main_call1.v7 (sitofp .f32),
    TRef.nullary main_call1.cst_1 (constant S_ .f32 0x461C4000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S10000x256_S256_d0 h_S_),
    TRef.unary main_call1.v8 main_call1.v10 (broadcastInDim S256 ![] bcast_S_S256),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S256 ![] bcast_S_S256),
    TRef.ternary main_call1.v12 main_call1.v11 main_call1.call0.v1 main_call1.call0.v2 (fun p a b => select (broadcastInDim S256 ![] bcast_S_S256 p) a b),
    unary main_v41 main_v43 (broadcastInDim S1x256 ![1] bcast_S256_S1x256_1),
    unary main_v43 main_v44 (broadcastInDim S10000x256 ![0, 1] bcast_S1x256_S10000x256_0_1),
    binary main_v38 main_v44 main_v45 subf,
    nullary main_cst_8 (constant S_ .f32 0x3727C5AC#32),
    unary main_cst_8 main_v46 (broadcastInDim S256 ![] bcast_S_S256),
    binary main_v42 main_v46 main_v47 addf,
    unary main_v47 main_v48 Host.sqrt ]

abbrev opsD : List (HloOp τ sig (Elt F)) :=
  [ unary main_v48 main_v49 (broadcastInDim S1x256 ![1] bcast_S256_S1x256_1),
    unary main_v49 main_v50 (broadcastInDim S10000x256 ![0, 1] bcast_S1x256_S10000x256_0_1),
    binary main_v45 main_v50 main_v51 Host.divf,
    unary main_arg7 main_v52 (broadcastInDim S1x256 ![1] bcast_S256_S1x256_1),
    unary main_v52 main_v53 (broadcastInDim S10000x256 ![0, 1] bcast_S1x256_S10000x256_0_1),
    binary main_v51 main_v53 main_v54 mulf,
    unary main_arg8 main_v55 (broadcastInDim S1x256 ![1] bcast_S256_S1x256_1),
    unary main_v55 main_v56 (broadcastInDim S10000x256 ![0, 1] bcast_S1x256_S10000x256_0_1),
    binary main_v54 main_v56 main_v57 addf,
    TRef.unary (.of main_v57) main_call2.v0 Host.negf,
    TRef.unary main_call2.v0 main_call2.v1 Host.exp,
    TRef.nullary main_call2.cst (constant S_ .f32 0x3F800000#32),
    TRef.unary main_call2.cst main_call2.v2 (broadcastInDim S10000x256 ![] bcast_S_S10000x256),
    TRef.binary main_call2.v2 main_call2.v1 main_call2.v3 addf,
    TRef.nullary main_call2.cst_0 (constant S_ .f32 0x3F800000#32),
    TRef.unary main_call2.cst_0 main_call2.v4 (broadcastInDim S10000x256 ![] bcast_S_S10000x256),
    TRef.binary main_call2.v4 main_call2.v3 main_call2.v5 Host.divf,
    TRef.binary (.of main_v57) main_call2.v5 main_call2.v6 mulf,
    binary main_arg0 main_v58 main_v59 addf ]

abbrev ops : List (HloOp τ sig (Elt F)) := (opsA ++ (opsB ++ opsC)) ++ opsD

theorem part0_eq (c : Dev nD) : main_part0 (F := F) c = seq (opsA ++ (opsB ++ opsC)) := by
  chain_rfl

theorem part1_eq (c : Dev nD) : main_part1 (F := F) c = seq opsD := by
  chain_rfl

theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.forall_append, List.forall_cons, List.Forall, nullary_bufs_sub, unary_bufs_sub, binary_bufs_sub,
    ternary_bufs_sub, reshape_bufs_sub, nary_bufs_sub, and_self]

theorem ops_fresh : ∀ op ∈ (ops : List (HloOp τ sig (Elt F))), op.fresh = ∅ :=
  List.forall_iff_forall_mem.1
    ⟨rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

abbrev args : List (Ref sig .tc) :=
  [main_arg0, main_arg1, main_arg2, main_arg3, main_arg4, main_arg5, main_arg6, main_arg7, main_arg8]

/-- No operation of the four stretches writes an argument. -/
theorem keep {r : Ref sig .tc} (hr : r ∈ args) (W : Valuation τ sig (Elt F)) :
    after opsA W r = W r ∧ after opsB W r = W r
      ∧ after opsC W r = W r ∧ after opsD W r = W r := by
  have h : ∀ y, y ∉ args → r ≠ y := fun y hy e => hy (e ▸ hr)
  refine ⟨?_, ?_, ?_, ?_⟩ <;>
    simp (disch := exact h _ (by decide)) only [after_cons, after_nil, nullary_result_ne', unary_result_ne', binary_result_ne',
      ternary_result_ne', reshape_result_ne', nary_result_ne']

/-- What each stretch leaves in a buffer read after it, as a function of what it finds in those it reads. -/
theorem A_v3 (W : Valuation τ sig (Elt F)) : after opsA W main_v3 = refDst (W main_arg1) := by
  after_results_simp <;> rfl

theorem A_v10 (W : Valuation τ sig (Elt F)) : after opsA W main_v10 = refGather (W main_arg0) (refDst (W main_arg1)) := by
  after_results_simp <;> rfl

theorem A_v17 (W : Valuation τ sig (Elt F)) : after opsA W main_v17 = refGather (W main_arg0) (refSrc (W main_arg1)) := by
  after_results_simp <;> rfl

theorem B_v38 (W : Valuation τ sig (Elt F)) :
    after opsB W main_v38
      = refConv (W main_arg0) (W main_v3)
          (refMsgOf (refCat3 (W main_v10) (W main_v17) (W main_arg2)) (W main_arg3)
            (W main_arg4) (W main_arg5) (W main_arg6)) := by
  simp (disch := decide) only [after_cons, after_nil, nullary_result', unary_result', binary_result', ternary_result', nary3_result',
    nullary_result_ne', unary_result_ne', binary_result_ne', ternary_result_ne', nary_result_ne'] <;> rfl

theorem C_v45 (W : Valuation τ sig (Elt F)) :
    after opsC W main_v45 = subf (W main_v38) (refRows (refMean (W main_v38))) := by
  after_results_simp <;> rfl

theorem C_v48 (W : Valuation τ sig (Elt F)) : after opsC W main_v48 = refStd (W main_v38) := by
  after_results_simp <;> rfl

theorem D_v59 (W : Valuation τ sig (Elt F)) :
    after opsD W main_v59
      = addf (W main_arg0) (refSilu (refScale (W main_v45) (W main_v48) (W main_arg7) (W main_arg8))) := by
  after_results_simp <;> rfl

theorem arg_eq {r : Ref sig .tc} (hr : r ∈ args) (V : Valuation τ sig (Elt F)) : after ops V r = V r := by
  rw [after_append, after_append, after_append, (keep hr _).2.2.2, (keep hr _).2.2.1, (keep hr _).2.1, (keep hr _).1]

theorem out_eq (V : Valuation τ sig (Elt F)) :
    after ops V main_v59
      = refOut
          (refConv (V main_arg0) (refDst (V main_arg1))
            (refMsg (V main_arg0) (V main_arg1) (V main_arg2) (V main_arg3)
              (V main_arg4) (V main_arg5) (V main_arg6)))
          (V main_arg0) (V main_arg7) (V main_arg8) := by
  have kA (r) (hr : r ∈ args) W := (keep (F := F) hr W).1
  have kB (r) (hr : r ∈ args) W := (keep (F := F) hr W).2.1
  have kC (r) (hr : r ∈ args) W := (keep (F := F) hr W).2.2.1
  rw [after_append, after_append, after_append, D_v59, C_v45, C_v48, kC main_arg0 (by decide), kC main_arg7 (by decide),
    kC main_arg8 (by decide), B_v38, kB main_arg0 (by decide), kB main_arg7 (by decide), kB main_arg8 (by decide), A_v3, A_v10, A_v17,
    kA main_arg0 (by decide), kA main_arg2 (by decide), kA main_arg3 (by decide), kA main_arg4 (by decide), kA main_arg5 (by decide),
    kA main_arg6 (by decide), kA main_arg7 (by decide), kA main_arg8 (by decide)]
  rfl

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v59)
        = RefValue.refOut
            (RefValue.refConv (m ((c.tc : Thread nD τ).loc main_arg0)) (RefValue.refDst (m ((c.tc : Thread nD τ).loc main_arg1)))
              (RefValue.refMsg (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5))
                (m ((c.tc : Thread nD τ).loc main_arg6))))
            (m ((c.tc : Thread nD τ).loc main_arg0)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _).trans (out_eq _), (h c main_arg0).trans (arg_eq (by decide) _), (h c main_arg1).trans (arg_eq (by decide) _),
      (h c main_arg2).trans (arg_eq (by decide) _), (h c main_arg3).trans (arg_eq (by decide) _), (h c main_arg4).trans (arg_eq (by decide) _),
      (h c main_arg5).trans (arg_eq (by decide) _), (h c main_arg6).trans (arg_eq (by decide) _), (h c main_arg7).trans (arg_eq (by decide) _),
      (h c main_arg8).trans (arg_eq (by decide) _)⟩)
    (run_main m ρ)

end Cert.ReferenceIdeal.RefRun

end
-- ==== Proof.RefRead.lean ====
import proofs.«150297_g64080912056811_cont_9to1c4b_125_48_alg».proof.Proof.Spec
import proofs.«150297_g64080912056811_cont_9to1c4b_125_48_alg».proof.Proof.LibRowsByCols
import proofs.«150297_g64080912056811_cont_9to1c4b_125_48_alg».proof.Proof.LibRowGather
import proofs.«150297_g64080912056811_cont_9to1c4b_125_48_alg».proof.Proof.RefTerms

noncomputable section

open scoped BigOperators

namespace Cert.ReferenceIdeal.RefValue

open Idealize.ShloMosaic Idealize.ShloMosaic.ValueIdx
open Cert.ReferenceIdeal Cert.ReferenceIdeal.Facts₀
open Cert.Spec Cert.Lib.RowGather

variable [Cert.ReferenceIdeal.Facts]

/-- A one-row matrix repeated down N rows reads, at row n, its only row. -/
theorem rowRep_apply {α : Type} {N : Nat}
    (h : S1x256.BroadcastsInDim ⟨2, ![N, 256]⟩ (![0, 1] : Fin 2 → Fin (⟨2, ![N, 256]⟩ : Shape).rank)) (u : S1x256.Idx → α)
    (n : Fin N) (j : Fin 256) : broadcastInDim ⟨2, ![N, 256]⟩ ![0, 1] h u (ix2 n j) = u (ix2 ⟨0, Nat.one_pos⟩ j) :=
  broadcastInDim_apply ![0, 1] h u (ix2 n j) (ix2 ⟨0, Nat.one_pos⟩ j) (fun a => match a with | ⟨0, _⟩ => rfl | ⟨1, _⟩ => rfl)

theorem row_apply {α : Type} (v : S256.Idx → α) (j : Fin 256) :
    broadcastInDim S1x256 ![1] bcast_S256_S1x256_1 v (ix2 ⟨0, Nat.one_pos⟩ j) = v (ix1 j) :=
  broadcastInDim_apply ![1] bcast_S256_S1x256_1 v (ix2 ⟨0, Nat.one_pos⟩ j) (ix1 j) (fun a => match a with | ⟨0, _⟩ => rfl)

theorem refRows_apply (v : FVec Ideal S256 .f32) (n : Fin 10000) (j : Fin 256) :
    refRows (F := Ideal) v (ix2 n j) = v (ix1 j) :=
  (rowRep_apply bcast_S1x256_S10000x256_0_1 _ n j).trans (row_apply v j)

theorem refCat3_apply (g1 g2 : FVec Ideal S160000x256 .f32) (g3 : FVec Ideal S160000x16 .f32) (e : Fin 160000) (k : Fin 528) :
    refCat3 (F := Ideal) g1 g2 g3 (ix2 e k)
      = if h : k.val < 256 then g1 (ix2 e ⟨k.val, h⟩)
        else if h2 : k.val < 512 then g2 (ix2 e ⟨k.val - 256, by omega⟩)
        else g3 (ix2 e ⟨k.val - 512, by omega⟩) := by
  have P := concatenate_apply_piece (t := S160000x528) (a := 1) (xs := [⟨S160000x256, g1⟩, ⟨S160000x256, g2⟩, ⟨S160000x16, g3⟩])
    concatenates_S160000x256_S160000x256_S160000x16_S160000x528_d1 (ix2 e k)
  by_cases h1 : k.val < 256
  · rw [dif_pos h1]
    exact P 0 (Nat.zero_lt_succ _) S160000x256 g1 rfl rfl 0 rfl (ix2 e ⟨k.val, h1⟩)
      (fun b hb => match b, hb with | ⟨0, _⟩, _ => rfl | ⟨1, _⟩, hb => absurd rfl hb) (Nat.zero_add _)
  · rw [dif_neg h1]
    by_cases h2 : k.val < 512
    · rw [dif_pos h2]
      exact P 1 (Nat.succ_lt_succ (Nat.zero_lt_succ _)) S160000x256 g2 rfl rfl 256 rfl (ix2 e ⟨k.val - 256, by omega⟩)
        (fun b hb => match b, hb with | ⟨0, _⟩, _ => rfl | ⟨1, _⟩, hb => absurd rfl hb) (by show 256 + (k.val - 256) = k.val; omega)
    · rw [dif_neg h2]
      exact P 2 (Nat.succ_lt_succ (Nat.succ_lt_succ (Nat.zero_lt_succ _))) S160000x16 g3 rfl rfl 512 rfl (ix2 e ⟨k.val - 512, by omega⟩)
        (fun b hb => match b, hb with | ⟨0, _⟩, _ => rfl | ⟨1, _⟩, hb => absurd rfl hb) (by show 512 + (k.val - 512) = k.val; omega)

section Message

variable (x : FVec Ideal S10000x256 .f32) (ei : IVec S2x160000 32) (ea : FVec Ideal S160000x16 .f32)

theorem refCat_apply (e : Fin 160000) (k : Fin 528) :
    refCat (F := Ideal) x ei ea (ix2 e k)
      = zcat x ea (rowAt (by decide) (refNormIdx (refDst ei))) (rowAt (by decide) (refNormIdx (refSrc ei))) e k := by
  unfold refCat zcat
  rw [refCat3_apply]
  by_cases h1 : k.val < 256
  · rw [dif_pos h1, dif_pos h1]
    exact gather_rows_apply (N := 10000) (by decide) _ rfl rfl rfl rfl rfl rfl rfl x _ e ⟨k.val, h1⟩
  · rw [dif_neg h1, dif_neg h1]
    by_cases h2 : k.val < 512
    · rw [dif_pos h2, dif_pos h2]
      exact gather_rows_apply (N := 10000) (by decide) _ rfl rfl rfl rfl rfl rfl rfl x _ e ⟨k.val - 256, by omega⟩
    · rw [dif_neg h2, dif_neg h2]

theorem dot_apply (z : FVec Ideal S160000x528 .f32) (W : FVec Ideal S528x256 .f32) (e : Fin 160000) (j : Fin 256) :
    Host.dotGeneral (F := Ideal) dot_S160000x528_S528x256_S160000x256_1_0_0_1_n_n none z W (ix2 e j)
      = ∑ k : Fin 528, z (ix2 e k) * W (ix2 k j) :=
  (Ideal.dotGeneral_apply _ _ _ z W (ix2 e j)).trans
    (Cert.Lib.RowsByCols.sum_eq (d := dot_S160000x528_S528x256_S160000x256_1_0_0_1_n_n) ⟨rfl, rfl, rfl, rfl, rfl, rfl⟩ z W (ix2 e j))

theorem refPre_apply (W : FVec Ideal S528x256 .f32) (b : FVec Ideal S256 .f32) (e : Fin 160000) (j : Fin 256) :
    refPre (F := Ideal) (refCat x ei ea) W b (ix2 e j)
      = preR x ea (rowAt (by decide) (refNormIdx (refDst ei))) (rowAt (by decide) (refNormIdx (refSrc ei))) W b e j :=
  (congrArg₂ (· + ·) (dot_apply _ W e j) ((rowRep_apply _ _ e j).trans (row_apply b j))).trans
    (congrArg (· + b (ix1 j)) (Finset.sum_congr rfl fun k _ => by rw [refCat_apply]))

theorem refMsg_apply (Wf : FVec Ideal S528x256 .f32) (bf : FVec Ideal S256 .f32) (Ws : FVec Ideal S528x256 .f32)
    (bs : FVec Ideal S256 .f32) (e : Fin 160000) (j : Fin 256) :
    refMsg (F := Ideal) x ei ea Wf bf Ws bs (ix2 e j)
      = msgR x ea (rowAt (by decide) (refNormIdx (refDst ei))) (rowAt (by decide) (refNormIdx (refSrc ei)))
          Wf bf Ws bs e j :=
  congrArg₂ (fun a b => gateR a * softR b) (refPre_apply x ei ea Wf bf e j) (refPre_apply x ei ea Ws bs e j)

end Message

theorem refConv_apply (x : FVec Ideal S10000x256 .f32) (dst : IVec S160000 32) (msg : FVec Ideal S160000x256 .f32)
    (i : S10000x256.Idx) :
    refConv (F := Ideal) x dst msg i
      = Ideal.hostScatterAdd scatter_S10000x256_S160000x1_S160000x256_1_0_0_1 (fun _ => c0)
          (broadcastInDim S160000x1 ![0] bcast_S160000_S160000x1_0 dst) msg i + x i := rfl

variable (cv : FVec Ideal S10000x256 .f32)

theorem colsum_apply (v : FVec Ideal S10000x256 .f32) (j : Fin 256) :
    Host.reduceAdd (F := Ideal) v (constant (F := Ideal) S_ .f32 0x00000000#32) reducesTo_S10000x256_S256_d0 h_S_ (ix1 j)
      = c0 + ∑ n : Fin 10000, v (ix2 n j) := by
  have hR : S10000x256.Reduces [0] S256 := by decide
  show Ideal.hostReduceAdd reducesTo_S10000x256_S256_d0 v c0 (ix1 j) = _
  rw [Ideal.hostReduceAdd_single reducesTo_S10000x256_S256_d0 hR v c0 (ix1 j)]
  refine congrArg (c0 + ·) (Finset.sum_congr rfl fun n _ => congrArg v ?_)
  funext a
  refine Fin.ext ?_
  match a with
  | ⟨0, _⟩ => rfl
  | ⟨1, _⟩ => rfl

theorem refMean_apply (j : Fin 256) :
    refMean (F := Ideal) cv (ix1 j) = meanR cv j :=
  congrArg (Ideal.div · c10k) (colsum_apply cv j)

theorem refDev_apply (n : Fin 10000) (j : Fin 256) :
    refDev (F := Ideal) cv (ix2 n j) = cv (ix2 n j) - meanR cv j := by
  unfold refDev meanR
  show cv (ix2 n j) - broadcastInDim S10000x256 _ bcast_S1x256_S10000x256_0_1 _ (ix2 n j) = _
  rw [rowRep_apply]
  show cv (ix2 n j) - Ideal.div (broadcastInDim S1x256 _ bcast_S256_S1x256_1 _ (ix2 ⟨0, Nat.one_pos⟩ j)) c10k = _
  rw [row_apply, colsum_apply]

theorem refVar_apply (j : Fin 256) : refVar (F := Ideal) cv (ix1 j) = varR cv j :=
  congrArg (fun t => Scalar.select (Ideal.cmp .ogt (c10k - ddof) c0) (Ideal.div t (c10k - ddof)) cNaN)
    ((colsum_apply _ j).trans
      (congrArg (c0 + ·) (Finset.sum_congr rfl fun n _ => congrArg (fun t => t * t) (refDev_apply cv n j))))

theorem refNorm_apply (gam bet : FVec Ideal S256 .f32) (n : Fin 10000) (j : Fin 256) :
    refNorm (F := Ideal) cv gam bet (ix2 n j) = normR cv gam bet n j := by
  unfold refNorm normR
  show Ideal.div (cv (ix2 n j) - refRows (F := Ideal) (refMean cv) (ix2 n j)) (refRows (F := Ideal) (refStd cv) (ix2 n j))
      * refRows (F := Ideal) gam (ix2 n j) + refRows (F := Ideal) bet (ix2 n j) = _
  rw [refRows_apply, refRows_apply, refRows_apply, refRows_apply, refMean_apply]
  show Ideal.div (cv (ix2 n j) - meanR cv j) (Ideal.sqrt (refVar (F := Ideal) cv (ix1 j) + cEps)) * gam (ix1 j) + bet (ix1 j) = _
  rw [refVar_apply]

theorem refOut_apply (x : FVec Ideal S10000x256 .f32) (gam bet : FVec Ideal S256 .f32) (n : Fin 10000) (j : Fin 256) :
    refOut (F := Ideal) cv x gam bet (ix2 n j) = outR cv x gam bet n j :=
  congrArg (fun t => x (ix2 n j) + t * gateR t) (refNorm_apply cv gam bet n j)

end Cert.ReferenceIdeal.RefValue

end
-- ==== Proof.AlgMsg.lean ====
import proofs.«150297_g64080912056811_cont_9to1c4b_125_48_alg».proof.Proof.Spec
import Idealize.ShloMosaic.PureOps.Ideal.Laws
import Mathlib.Data.EReal.Basic

noncomputable section

namespace Cert.Spec

open Idealize.ShloMosaic Idealize.ShloMosaic.ValueIdx

theorem sum_cut (f : Fin 528 → EReal) :
    ∑ k : Fin 528, f k
      = ((∑ k : Fin 256, f ⟨k.val, by omega⟩) + ∑ k : Fin 256, f ⟨256 + k.val, by omega⟩)
        + ∑ k : Fin 16, f ⟨512 + k.val, by omega⟩ := by
  have h1 : ∑ k : Fin (512 + 16), f k
      = ∑ k : Fin 512, f (Fin.castAdd 16 k) + ∑ k : Fin 16, f (Fin.natAdd 512 k) :=
    Fin.sum_univ_add fun k : Fin (512 + 16) => f k
  have h2 : ∑ k : Fin (256 + 256), f (Fin.castAdd 16 k)
      = ∑ k : Fin 256, f (Fin.castAdd 16 (Fin.castAdd 256 k))
        + ∑ k : Fin 256, f (Fin.castAdd 16 (Fin.natAdd 256 k)) :=
    Fin.sum_univ_add fun k : Fin (256 + 256) => f (Fin.castAdd 16 k)
  exact h1.trans (congrArg (· + ∑ k : Fin 16, f (Fin.natAdd 512 k)) h2)

section Message

variable (x : Mat 10000 256) (ea : Mat 160000 16) (d s : Fin 160000 → Fin 10000)

theorem zcat_target (e : Fin 160000) (k : Fin 256) :
    zcat x ea d s e ⟨k.val, by omega⟩ = x (ix2 (d e) k) := by
  unfold zcat
  rw [dif_pos (show (⟨k.val, by omega⟩ : Fin 528).val < 256 from k.isLt)]

theorem zcat_source (e : Fin 160000) (k : Fin 256) :
    zcat x ea d s e ⟨256 + k.val, by omega⟩ = x (ix2 (s e) k) := by
  unfold zcat
  rw [dif_neg (show ¬ (⟨256 + k.val, by omega⟩ : Fin 528).val < 256 from by simp),
    dif_pos (show (⟨256 + k.val, by omega⟩ : Fin 528).val < 512 from by have := k.isLt; simp; omega)]
  exact congrArg (fun q : Fin 256 => x (ix2 (s e) q)) (Fin.ext (Nat.add_sub_cancel_left ..))

theorem zcat_edge (e : Fin 160000) (k : Fin 16) :
    zcat x ea d s e ⟨512 + k.val, by omega⟩ = ea (ix2 e k) := by
  unfold zcat
  rw [dif_neg (show ¬ (⟨512 + k.val, by omega⟩ : Fin 528).val < 256 from by simp; omega),
    dif_neg (show ¬ (⟨512 + k.val, by omega⟩ : Fin 528).val < 512 from by simp)]
  exact congrArg (fun q : Fin 16 => ea (ix2 e q)) (Fin.ext (Nat.add_sub_cancel_left ..))

theorem preK_eq_preR (W : Mat 528 256) (b : Vect 256) (e : Fin 160000) (j : Fin 256) :
    preK x ea d s W b e j = preR x ea d s W b e j := by
  unfold preK preR
  rw [sum_cut fun k : Fin 528 => zcat x ea d s e k * W (ix2 k j)]
  simp only [zcat_target, zcat_source, zcat_edge]
  rw [add_right_comm (∑ k : Fin 256, x (ix2 (d e) k) * W (ix2 ⟨k.val, by omega⟩ j)) (b (ix1 j)),
    add_right_comm _ (b (ix1 j))]

end Message

theorem c0_eq : c0 = 0 := Ideal.ofBits_zero_f32

theorem gateK_eq_gateR (t : EReal) : gateK t = gateR t := by
  unfold gateK gateR
  rw [c0_eq, zero_sub]

theorem softK_eq_softR (t : EReal) : softK t = softR t := by
  have hcmp : Ideal.cmp .une (t - c0) (t - c0) = 0#1 := by
    simp [Ideal.cmp]
  unfold softK softR
  rw [hcmp, select_zero, c0_eq, sub_zero, zero_sub]

theorem msg_eq (x : Mat 10000 256) (ea : Mat 160000 16) (d s : Fin 160000 → Fin 10000)
    (Wf : Mat 528 256) (bf : Vect 256) (Ws : Mat 528 256) (bs : Vect 256) (e : Fin 160000) (j : Fin 256) :
    msgK x ea d s Wf bf Ws bs e j = msgR x ea d s Wf bf Ws bs e j := by
  unfold msgK msgR
  rw [preK_eq_preR, preK_eq_preR, gateK_eq_gateR, softK_eq_softR]

end Cert.Spec

end
-- ==== Proof.AlgNorm.lean ====
import proofs.«150297_g64080912056811_cont_9to1c4b_125_48_alg».proof.Proof.Spec
import Mathlib.Algebra.BigOperators.Ring.Finset
import Mathlib.Algebra.Order.BigOperators.Group.Finset
import Mathlib.Analysis.Real.Sqrt
import Mathlib.Logic.Equiv.Fin.Basic
import Mathlib.Tactic.Ring
import Mathlib.Tactic.Linarith
import Mathlib.Tactic.NormNum
import Mathlib.Tactic.Positivity

noncomputable section

namespace Cert.Spec

open Idealize.ShloMosaic Idealize.ShloMosaic.ValueIdx

theorem c0_eq : c0 = 0 := by
  simp [c0, Ideal.ofBits, Ideal.ieee]

theorem c1_eq : c1 = 1 := by
  simp [c1, Ideal.ofBits, Ideal.ieee, -EReal.coe_mul]; norm_num

theorem c10k_eq : c10k = ((10000 : ℝ) : EReal) := by
  simp [c10k, Ideal.ofBits, Ideal.ieee, -EReal.coe_mul]; norm_num

theorem ddof_eq : ddof = 0 := by
  simp [ddof]

theorem cEps_eq : ∃ ε : ℝ, 0 < ε ∧ cEps = ((ε : ℝ) : EReal) := by
  refine ⟨(10995116 : ℝ) * (2 : ℝ) ^ (-40 : ℤ), by positivity, ?_⟩
  simp [cEps, Ideal.ofBits, Ideal.ieee, -EReal.coe_mul]

theorem accSum_eq (f : Fin 10000 → EReal) : accSum f = ∑ n : Fin 10000, f n := by
  have h := Fintype.sum_equiv (finProdFinEquiv : Fin 5 × Fin 2000 ≃ Fin (5 * 2000))
    (fun p => f ⟨2000 * p.1.val + p.2.val, by omega⟩) (fun n => f n)
    (fun p => by
      congr 1
      apply Fin.ext
      simp [finProdFinEquiv]
      ring)
  have h2 : (∑ n : Fin (5 * 2000), f n) = ∑ n : Fin 10000, f n := rfl
  rw [← h2, ← h, Fintype.sum_prod_type, Fin.sum_univ_five]
  rfl

theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

def colMean (g : Fin 10000 → ℝ) : ℝ := (∑ n, g n) * (1 / 10000)

def colVar (g : Fin 10000 → ℝ) : ℝ := (∑ n, (g n - colMean g) * (g n - colMean g)) * (1 / 10000)

theorem var_real (g : Fin 10000 → ℝ) :
    colVar g = (∑ n, g n * g n) * (1 / 10000) - colMean g * colMean g := by
  unfold colVar colMean
  generalize hS : (∑ m, g m) = S
  have h : ∀ n, (g n - S * (1 / 10000)) * (g n - S * (1 / 10000))
      = g n * g n - (2 * (S * (1 / 10000))) * g n + (S * (1 / 10000)) * (S * (1 / 10000)) := fun n => by ring
  simp only [h]
  rw [Finset.sum_add_distrib, Finset.sum_sub_distrib, ← Finset.mul_sum, Finset.sum_const, Finset.card_univ,
    Fintype.card_fin, nsmul_eq_mul, hS]
  push_cast
  ring

theorem colVar_nonneg (g : Fin 10000 → ℝ) : 0 ≤ colVar g :=
  mul_nonneg (Finset.sum_nonneg fun n _ => mul_self_nonneg _) (by norm_num)

theorem sqrt_pos_coe {v : ℝ} (hv : 0 < v) : Ideal.sqrt (v : EReal) = ((Real.sqrt v : ℝ) : EReal) := by
  rw [Ideal.sqrt_coe, if_neg (not_lt.2 hv.le)]

theorem rsqrt_pos_coe {v : ℝ} (hv : 0 < v) : Ideal.rsqrt (v : EReal) = (((Real.sqrt v)⁻¹ : ℝ) : EReal) := by
  rw [Ideal.rsqrt_coe, if_neg (not_lt.2 hv.le), if_neg hv.ne']

section Column

variable (cv : Mat 10000 256) (j : Fin 256) (g : Fin 10000 → ℝ)
  (hg : ∀ n, cv (ix2 n j) = ((g n : ℝ) : EReal))
include hg

theorem sum_col : (∑ n : Fin 10000, cv (ix2 n j)) = ((∑ n, g n : ℝ) : EReal) := by
  rw [coe_sum]; exact Finset.sum_congr rfl fun n _ => hg n

theorem meanK_eq : meanK cv j = ((colMean g : ℝ) : EReal) := by
  rw [meanK, s1K, accSum_eq, sum_col cv j g hg, invN, ← EReal.coe_mul, colMean]

theorem meanR_eq : meanR cv j = ((colMean g : ℝ) : EReal) := by
  rw [meanR, c0_eq, zero_add, c10k_eq, Ideal.div_coe (by norm_num), sum_col cv j g hg, ← EReal.coe_mul, colMean]

theorem varK_eq : varK cv j = ((colVar g : ℝ) : EReal) := by
  have hsq : (∑ n : Fin 10000, cv (ix2 n j) * cv (ix2 n j)) = ((∑ n, g n * g n : ℝ) : EReal) := by
    rw [coe_sum]; exact Finset.sum_congr rfl fun n _ => by rw [hg n, EReal.coe_mul]
  rw [varK, s2K, accSum_eq, hsq, meanK_eq cv j g hg, invN, ← EReal.coe_mul, ← EReal.coe_mul, ← EReal.coe_sub,
    var_real]

theorem varR_eq : varR cv j = ((colVar g : ℝ) : EReal) := by
  have hd : c10k - ddof = ((10000 : ℝ) : EReal) := by rw [c10k_eq, ddof_eq, sub_zero]
  have hc : Ideal.cmp .ogt ((10000 : ℝ) : EReal) c0 = 1#1 := by
    have : (0 : EReal) < ((10000 : ℝ) : EReal) := EReal.coe_pos.2 (by norm_num)
    rw [c0_eq]; simp [Ideal.cmp, this]
  have hsq : (∑ n : Fin 10000, (cv (ix2 n j) - meanR cv j) * (cv (ix2 n j) - meanR cv j))
      = ((∑ n, (g n - colMean g) * (g n - colMean g) : ℝ) : EReal) := by
    rw [coe_sum]
    exact Finset.sum_congr rfl fun n _ => by rw [hg n, meanR_eq cv j g hg, ← EReal.coe_sub, ← EReal.coe_mul]
  rw [varR, hd, hc, select_one, Ideal.div_coe (by norm_num), c0_eq, zero_add, hsq, ← EReal.coe_mul, colVar]

theorem norm_eq (gam bet : Vect 256) (n : Fin 10000) : normK cv gam bet n j = normR cv gam bet n j := by
  obtain ⟨ε, hε, hE⟩ := cEps_eq
  have hv : 0 < colVar g + ε := by have := colVar_nonneg g; linarith
  have hs : Real.sqrt (colVar g + ε) ≠ 0 := (Real.sqrt_pos.2 hv).ne'
  rw [normK, normR, rstdK, varK_eq cv j g hg, varR_eq cv j g hg, hE, ← EReal.coe_add, sqrt_pos_coe hv,
    rsqrt_pos_coe hv, Ideal.div_coe hs, one_div, meanK_eq cv j g hg, meanR_eq cv j g hg]

end Column

theorem gate_eq (t : EReal) : gateK t = gateR t := by
  rw [gateK, gateR, c0_eq, sub_eq_add_neg, zero_add]

theorem out_eq (cv x : Mat 10000 256) (gam bet : Vect 256) (hcv : ∀ i, IsReal (cv i)) (n : Fin 10000) (j : Fin 256) :
    outK cv x gam bet n j = outR cv x gam bet n j := by
  choose r hr using hcv
  have hn : normK cv gam bet n j = normR cv gam bet n j :=
    norm_eq cv j (fun m => r (ix2 m j)) (fun m => hr _) gam bet n
  rw [outK, outR, hn, gate_eq]

end Cert.Spec

end
-- ==== Proof.AlgFinite.lean ====
import proofs.«150297_g64080912056811_cont_9to1c4b_125_48_alg».proof.Proof.Spec
import Idealize.ShloMosaic.Lib.IdealHost

noncomputable section

namespace Cert.Spec

open Idealize.ShloMosaic Idealize.ShloMosaic.ValueIdx

theorem coe_isReal (r : ℝ) : IsReal (r : EReal) := ⟨r, rfl⟩

theorem add_isReal {a b : EReal} (ha : IsReal a) (hb : IsReal b) : IsReal (a + b) := by
  obtain ⟨r, rfl⟩ := ha; obtain ⟨t, rfl⟩ := hb
  exact ⟨r + t, (EReal.coe_add r t).symm⟩

theorem mul_isReal {a b : EReal} (ha : IsReal a) (hb : IsReal b) : IsReal (a * b) := by
  obtain ⟨r, rfl⟩ := ha; obtain ⟨t, rfl⟩ := hb
  exact ⟨r * t, (EReal.coe_mul r t).symm⟩

theorem neg_isReal {a : EReal} (ha : IsReal a) : IsReal (-a) := by
  obtain ⟨r, rfl⟩ := ha
  exact ⟨-r, (EReal.coe_neg r).symm⟩

theorem sub_isReal {a b : EReal} (ha : IsReal a) (hb : IsReal b) : IsReal (a - b) := by
  obtain ⟨r, rfl⟩ := ha; obtain ⟨t, rfl⟩ := hb
  exact ⟨r - t, (EReal.coe_sub r t).symm⟩

theorem max_isReal {a b : EReal} (ha : IsReal a) (hb : IsReal b) : IsReal (max a b) := by
  rcases le_total a b with h | h
  · rw [max_eq_right h]; exact hb
  · rw [max_eq_left h]; exact ha

theorem zero_isReal : IsReal (0 : EReal) := ⟨0, rfl⟩

theorem sum_isReal {ι : Type} (t : Finset ι) (f : ι → EReal) (hf : ∀ i ∈ t, IsReal (f i)) :
    IsReal (∑ i ∈ t, f i) :=
  Finset.sum_induction f IsReal (fun _ _ ha hb => add_isReal ha hb) zero_isReal hf

theorem c0_eq : c0 = 0 := Ideal.ofBits_zero_f32
theorem c1_eq : c1 = 1 := Ideal.ofBits_one_f32

theorem c0_isReal : IsReal c0 := by rw [c0_eq]; exact zero_isReal
theorem c1_isReal : IsReal c1 := by rw [c1_eq]; exact ⟨1, rfl⟩

theorem exp_coe (r : ℝ) : Ideal.exp (r : EReal) = ((Real.exp r : ℝ) : EReal) := rfl

theorem log_coe_pos {r : ℝ} (hr : 0 < r) : Ideal.log (r : EReal) = ((Real.log r : ℝ) : EReal) := by
  show (if r ≤ 0 then (⊥ : EReal) else ((Real.log r : ℝ) : EReal)) = _
  rw [if_neg (not_le.mpr hr)]

theorem exp_isReal {a : EReal} (ha : IsReal a) : IsReal (Ideal.exp a) := by
  obtain ⟨r, rfl⟩ := ha
  exact ⟨Real.exp r, exp_coe r⟩

theorem log1p_exp_isReal {a : EReal} (ha : IsReal a) : IsReal (Ideal.log1p (Ideal.exp a)) := by
  obtain ⟨r, rfl⟩ := ha
  have hpos : 0 < 1 + Real.exp r := by positivity
  refine ⟨Real.log (1 + Real.exp r), ?_⟩
  show Ideal.log (1 + Ideal.exp (r : EReal)) = _
  rw [exp_coe, show (1 : EReal) + ((Real.exp r : ℝ) : EReal) = ((1 + Real.exp r : ℝ) : EReal) by
    rw [EReal.coe_add]; rfl]
  exact log_coe_pos hpos

theorem div_one_add_exp_isReal {a : EReal} (ha : IsReal a) :
    IsReal (Ideal.div c1 (c1 + Ideal.exp a)) := by
  obtain ⟨r, rfl⟩ := ha
  have hpos : 0 < 1 + Real.exp r := by positivity
  have hden : c1 + Ideal.exp (r : EReal) = ((1 + Real.exp r : ℝ) : EReal) := by
    rw [c1_eq, exp_coe, EReal.coe_add]; rfl
  rw [hden]
  have hne : ((1 + Real.exp r : ℝ) : EReal) ≠ 0 := by
    intro h
    have : (1 + Real.exp r : ℝ) = 0 := by exact_mod_cast h
    exact (ne_of_gt hpos) this
  unfold Ideal.div
  rw [if_neg hne, c1_eq, one_mul, ← EReal.coe_inv]
  exact coe_isReal _

theorem gateK_isReal {t : EReal} (ht : IsReal t) : IsReal (gateK t) :=
  div_one_add_exp_isReal (sub_isReal c0_isReal ht)

theorem softK_isReal {t : EReal} (ht : IsReal t) : IsReal (softK t) :=
  add_isReal (max_isReal ht c0_isReal)
    (log1p_exp_isReal (sub_isReal c0_isReal (max_isReal ht (neg_isReal ht))))

theorem preK_isReal (x : Mat 10000 256) (ea : Mat 160000 16) (d s : Fin 160000 → Fin 10000)
    (W : Mat 528 256) (b : Vect 256)
    (hx : ∀ i, IsReal (x i)) (hea : ∀ i, IsReal (ea i)) (hW : ∀ i, IsReal (W i)) (hb : ∀ i, IsReal (b i))
    (e : Fin 160000) (j : Fin 256) : IsReal (preK x ea d s W b e j) := by
  unfold preK
  refine add_isReal (add_isReal (add_isReal ?_ (hb _)) ?_) ?_
  · exact sum_isReal _ _ fun k _ => mul_isReal (hx _) (hW _)
  · exact sum_isReal _ _ fun k _ => mul_isReal (hx _) (hW _)
  · exact sum_isReal _ _ fun k _ => mul_isReal (hea _) (hW _)

theorem msgK_isReal (x : Mat 10000 256) (ea : Mat 160000 16) (d s : Fin 160000 → Fin 10000)
    (Wf : Mat 528 256) (bf : Vect 256) (Ws : Mat 528 256) (bs : Vect 256)
    (hx : ∀ i, IsReal (x i)) (hea : ∀ i, IsReal (ea i)) (hWf : ∀ i, IsReal (Wf i)) (hbf : ∀ i, IsReal (bf i))
    (hWs : ∀ i, IsReal (Ws i)) (hbs : ∀ i, IsReal (bs i))
    (e : Fin 160000) (j : Fin 256) : IsReal (msgK x ea d s Wf bf Ws bs e j) :=
  mul_isReal (gateK_isReal (preK_isReal x ea d s Wf bf hx hea hWf hbf e j))
    (softK_isReal (preK_isReal x ea d s Ws bs hx hea hWs hbs e j))

theorem scatterAdd_isReal {s si su : Shape} (dd : ScatterDims s si su) {w : Nat} (x0 : s.Idx → EReal)
    (idx : IVec si w) (upd : su.Idx → EReal)
    (h0 : ∀ i, IsReal (x0 i)) (hu : ∀ k, IsReal (upd k)) (i : s.Idx) :
    IsReal (Ideal.hostScatterAdd dd x0 idx upd i) := by
  unfold Ideal.hostScatterAdd
  exact add_isReal (h0 i) (sum_isReal _ _ fun k _ => hu k)

end Cert.Spec

end
-- ==== Proof.PreFinite.lean ====
import proofs.«150297_g64080912056811_cont_9to1c4b_125_48_alg».proof.Proof.Gen.Pre_finite_inputs
import proofs.«150297_g64080912056811_cont_9to1c4b_125_48_alg».proof.Proof.Spec
import Idealize.ShloMosaic.Lib.ReduceAll

noncomputable section

namespace Cert.PreFinite

open Idealize.ShloMosaic Idealize.ShloMosaic.ValueIdx

theorem inf_word : Ideal.ofBits .f32 0x7F800000#32 = (⊤ : EReal) := by
  simp [Ideal.ofBits, Ideal.ieee]

theorem isReal_of_abs_lt_top (x : EReal) (h : max x (-x) < (⊤ : EReal)) : Cert.Spec.IsReal x := by
  induction x using EReal.rec with
  | bot => simp at h
  | coe r => exact ⟨r, rfl⟩
  | top => simp at h

instance : Subsingleton Cert.Pre_finite_inputs.S_.Idx := ⟨fun a b => funext fun d => d.elim0⟩

theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf a)
            (broadcastInDim s ![] hb (constant (F := Ideal) Cert.Pre_finite_inputs.S_ .f32 0x7F800000#32)))
          init hr hu j = 1#1) :
    ∀ i, Cert.Spec.IsReal (a i) := by
  intro i
  have h1 := Host.reduce_andi_all _ _ hr hu j e i
  have h2 : Ideal.cmp .olt (max (a i) (-(a i))) (Ideal.ofBits .f32 0x7F800000#32) = 1#1 := h1
  rw [inf_word] at h2
  refine isReal_of_abs_lt_top (a i) ?_
  by_contra hn
  simp [Ideal.cmp, hn] at h2

open Cert.Pre_finite_inputs in

theorem real_of_pre [Cert.Pre_finite_inputs.Facts]
    (a0 : FVec Ideal S10000x256 .f32) (a1 : IVec S2x160000 32) (a2 : FVec Ideal S160000x16 .f32)
    (a3 : FVec Ideal S528x256 .f32) (a4 : FVec Ideal S256 .f32) (a5 : FVec Ideal S528x256 .f32)
    (a6 : FVec Ideal S256 .f32) (a7 : FVec Ideal S256 .f32) (a8 : FVec Ideal S256 .f32)
    (h : Cert.Pre_finite_inputs.fn (F := Ideal) a0 a1 a2 a3 a4 a5 a6 a7 a8 = (fun _ => 1#1)) :
    (∀ i, Cert.Spec.IsReal (a0 i)) ∧ (∀ i, Cert.Spec.IsReal (a2 i)) ∧ (∀ i, Cert.Spec.IsReal (a3 i))
      ∧ (∀ i, Cert.Spec.IsReal (a4 i)) ∧ (∀ i, Cert.Spec.IsReal (a5 i)) ∧ (∀ i, Cert.Spec.IsReal (a6 i))
      ∧ (∀ i, Cert.Spec.IsReal (a7 i)) ∧ (∀ i, Cert.Spec.IsReal (a8 i)) := by
  have h0 := congrFun h ValueIdx.ix0
  dsimp only [Cert.Pre_finite_inputs.fn, Cert.Pre_finite_inputs.fn_part1, Cert.Pre_finite_inputs.fn_part2,
    Idealize.ShloMosaic.andi] at h0

  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all a0 _ _ _ _ _ e0, real_of_all a2 _ _ _ _ _ e2, real_of_all a3 _ _ _ _ _ e3,
    real_of_all a4 _ _ _ _ _ e4, real_of_all a5 _ _ _ _ _ e5, real_of_all a6 _ _ _ _ _ e6,
    real_of_all a7 _ _ _ _ _ e7, real_of_all a8 _ _ _ _ _ e8⟩

end Cert.PreFinite

end
-- ==== Proof.Bridge.lean ====
import proofs.«150297_g64080912056811_cont_9to1c4b_125_48_alg».proof.Defs
import proofs.«150297_g64080912056811_cont_9to1c4b_125_48_alg».proof.Proof.KIValue
import proofs.«150297_g64080912056811_cont_9to1c4b_125_48_alg».proof.Proof.RefRun
import proofs.«150297_g64080912056811_cont_9to1c4b_125_48_alg».proof.Proof.RefRead
import proofs.«150297_g64080912056811_cont_9to1c4b_125_48_alg».proof.Proof.AlgMsg
import proofs.«150297_g64080912056811_cont_9to1c4b_125_48_alg».proof.Proof.AlgNorm
import proofs.«150297_g64080912056811_cont_9to1c4b_125_48_alg».proof.Proof.AlgFinite
import proofs.«150297_g64080912056811_cont_9to1c4b_125_48_alg».proof.Proof.PreFinite

noncomputable section

namespace Cert.Proof.Bridge

open Idealize.ShloMosaic Idealize.ShloMosaic.TcCoe Idealize.SL.Sem
open Idealize.ShloMosaic.ValueIdx

theorem frame_ki : Cert.frame_KernelIdeal := fun m ρ _ =>
  (θ_run Cert.KernelIdeal.defs _ _).mono (fun r h c => have k := Cert.KernelIdeal.Hand.kept m ρ c (h c)
    ⟨k _ (by decide), k _ (by decide), k _ (by decide), k _ (by decide), k _ (by decide), k _ (by decide), k _ (by decide), k _ (by decide), k _ (by decide)⟩)
    (Cert.KernelIdeal.Hand.run_all (F := Ideal) m ρ)

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal :=
  ⟨IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl⟩

section Value

open Cert.KernelIdeal.Hand Cert.ReferenceIdeal.RefValue Cert.Spec Cert.Lib.RowGather

variable (x : Mat 10000 256) (ei : IVec Cert.KernelIdeal.S2x160000 32) (ea : Mat 160000 16) (Wf : Mat 528 256) (bf : Vect 256)
  (Ws : Mat 528 256) (bs : Vect 256) (gam bet : Vect 256)

abbrev msgArrK : Mat 160000 256 := fun e =>
  msgK x ea (rowAt (by decide) (kNormIdx (kDst ei))) (rowAt (by decide) (kNormIdx (kSrc ei))) Wf bf Ws bs ⟨(e 0).val, idx2_lt0 e⟩ ⟨(e 1).val, idx2_lt1 e⟩

abbrev convK : Mat 10000 256 :=
  addM
    (Ideal.hostScatterAdd Cert.KernelIdeal.scatter_S10000x256_S160000x1_S160000x256_1_0_0_1 (fun _ => c0)
      (broadcastInDim Cert.KernelIdeal.S160000x1 ![0] Cert.KernelIdeal.Facts₀.bcast_S160000_S160000x1_0 (kDst ei))
      (msgArrK x ei ea Wf bf Ws bs))
    x

theorem refMsg_eq : refMsg (F := Ideal) x ei ea Wf bf Ws bs = msgArrK x ei ea Wf bf Ws bs := by
  funext e
  rw [eq_ix2 e]
  refine (refMsg_apply x ei ea Wf bf Ws bs (e 0) (e 1)).trans ?_
  exact (msg_eq x ea _ _ Wf bf Ws bs _ _).symm

theorem refConv_eq : refConv (F := Ideal) x (refDst ei) (refMsg (F := Ideal) x ei ea Wf bf Ws bs) = convK x ei ea Wf bf Ws bs := by
  funext q
  rw [refConv_apply, refMsg_eq]
  rfl

theorem convK_isReal (hx : ∀ i, IsReal (x i)) (hea : ∀ i, IsReal (ea i)) (hWf : ∀ i, IsReal (Wf i)) (hbf : ∀ i, IsReal (bf i))
    (hWs : ∀ i, IsReal (Ws i)) (hbs : ∀ i, IsReal (bs i)) (q) : IsReal (convK x ei ea Wf bf Ws bs q) :=
  show IsReal (_ + _) from add_isReal (scatterAdd_isReal _ _ _ _ (fun _ => c0_isReal) (fun e => msgK_isReal x ea _ _ Wf bf Ws bs hx hea hWf hbf hWs hbs _ _) q) (hx q)

theorem refOut_eq (hx : ∀ i, IsReal (x i)) (hea : ∀ i, IsReal (ea i)) (hWf : ∀ i, IsReal (Wf i)) (hbf : ∀ i, IsReal (bf i))
    (hWs : ∀ i, IsReal (Ws i)) (hbs : ∀ i, IsReal (bs i)) :
    refOut (F := Ideal) (refConv (F := Ideal) x (refDst ei) (refMsg (F := Ideal) x ei ea Wf bf Ws bs)) x gam bet
      = fun i => outK (convK x ei ea Wf bf Ws bs) x gam bet ⟨(i 0).val, idx2_lt0 i⟩ ⟨(i 1).val, idx2_lt1 i⟩ := by
  funext i
  rw [refConv_eq]
  conv_lhs => rw [eq_ix2 i]
  refine (refOut_apply _ x gam bet (i 0) (i 1)).trans ?_
  exact (out_eq _ x gam bet (convK_isReal x ei ea Wf bf Ws bs hx hea hWf hbf hWs hbs) _ _).symm

end Value

theorem algebraic : Cert.algebraic_KernelIdeal_ReferenceIdeal := by
  intro m ρ m' ρ' hpre hagree
  refine ⟨fun c => Cert.KernelIdeal.Hand.U9 (F := Ideal) m ρ c (Proc.devRef .tc Cert.KernelIdeal.main_v40), ?_, ?_⟩
  · exact (θ_run Cert.KernelIdeal.defs _ _).mono (fun r h c => have k := Cert.KernelIdeal.Hand.kept m ρ c (h c)
      ⟨h c _ (Cert.KernelIdeal.Hand.mem_uc Cert.KernelIdeal.main_v40 (by decide)),
       k _ (by decide), k _ (by decide), k _ (by decide), k _ (by decide), k _ (by decide), k _ (by decide), k _ (by decide), k _ (by decide), k _ (by decide)⟩)
      (Cert.KernelIdeal.Hand.run_all (F := Ideal) m ρ)
  · refine (θ_run Cert.ReferenceIdeal.defs _ _).mono (fun r h c => ⟨(h c).1.trans ?_, (h c).2⟩)
      (Cert.ReferenceIdeal.RefRun.run (F := Ideal) m' ρ')
    obtain ⟨h0, h2, h3, h4, h5, h6, h7, h8⟩ := Cert.PreFinite.real_of_pre _ _ _ _ _ _ _ _ _ (hpre c)
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    refine (refOut_eq _ _ _ _ _ _ _ _ _ h0 h2 h3 h4 h5 h6).trans ?_
    exact (Cert.KernelIdeal.Hand.kernel_value m ρ c).symm

end Cert.Proof.Bridge

end
-- ==== Proof.lean ====
/-
  A gated graph convolution, batch normalisation, SiLU and residual, computed by five kernel regions among host
  operations, against the plain reference: the kernel splits the concatenated row's product into three and takes
  the variance as E[c²] − E[c]²; equal to the reference's where the convolution's output is finite.
-/
import proofs.«150297_g64080912056811_cont_9to1c4b_125_48_alg».proof.Defs
import proofs.«150297_g64080912056811_cont_9to1c4b_125_48_alg».proof.Proof.Gen.Kernel
import proofs.«150297_g64080912056811_cont_9to1c4b_125_48_alg».proof.Proof.Gen.KernelIdeal
import proofs.«150297_g64080912056811_cont_9to1c4b_125_48_alg».proof.Proof.Gen.ReferenceIdeal
import proofs.«150297_g64080912056811_cont_9to1c4b_125_48_alg».proof.Proof.Gen.Pre_finite_inputs
import proofs.«150297_g64080912056811_cont_9to1c4b_125_48_alg».proof.Proof.KRun
import proofs.«150297_g64080912056811_cont_9to1c4b_125_48_alg».proof.Proof.KWalkArgs
import proofs.«150297_g64080912056811_cont_9to1c4b_125_48_alg».proof.Proof.Bridge
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun r h c => have k := Cert.Kernel.Hand.kept m ρ c (h c)
    ⟨k _ (by decide), k _ (by decide), k _ (by decide), k _ (by decide), k _ (by decide), k _ (by decide), k _ (by decide), k _ (by decide), k _ (by decide)⟩)
    (Cert.Kernel.Hand.run_all (F := Bits) m ρ)

theorem claim : Cert.Claim := ⟨Cert.Kernel.Gen.facts, Cert.KernelIdeal.Gen.facts, Cert.ReferenceIdeal.Gen.facts, Cert.Pre_finite_inputs.Gen.facts,
  frame_k, Cert.Proof.Bridge.frame_ki, Cert.Proof.Bridge.frame_ri, Cert.Proof.Bridge.preserves, Cert.Proof.Bridge.algebraic⟩

end Cert.Proof

end
